-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v132)) (v2 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v132) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S1024x20000 : Shape := ⟨2, ![1024, 20000]⟩
abbrev S262144 : Shape := ⟨1, ![262144]⟩
abbrev S3x3 : Shape := ⟨2, ![3, 3]⟩
abbrev S3 : Shape := ⟨1, ![3]⟩
abbrev S512x3072 : Shape := ⟨2, ![512, 3072]⟩
abbrev S512 : Shape := ⟨1, ![512]⟩
abbrev S256x512 : Shape := ⟨2, ![256, 512]⟩
abbrev S256 : Shape := ⟨1, ![256]⟩
abbrev S32x256 : Shape := ⟨2, ![32, 256]⟩
abbrev S32 : Shape := ⟨1, ![32]⟩
abbrev S512x20000 : Shape := ⟨2, ![512, 20000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S64x64 : Shape := ⟨2, ![64, 64]⟩
abbrev S128x64 : Shape := ⟨2, ![128, 64]⟩
abbrev S256x128 : Shape := ⟨2, ![256, 128]⟩
abbrev S512x256 : Shape := ⟨2, ![512, 256]⟩
abbrev S20000x512 : Shape := ⟨2, ![20000, 512]⟩
abbrev S64x32 : Shape := ⟨2, ![64, 32]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S1024x20000 : S_.BroadcastsInDim S1024x20000 (![] : Fin 0 → Fin S1024x20000.rank)
  reducesTo_S1024x20000_S_d0_1 : S1024x20000.ReducesTo [0, 1] S_
  bcast_S_S262144 : S_.BroadcastsInDim S262144 (![] : Fin 0 → Fin S262144.rank)
  reducesTo_S262144_S_d0 : S262144.ReducesTo [0] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S512x3072 : S_.BroadcastsInDim S512x3072 (![] : Fin 0 → Fin S512x3072.rank)
  reducesTo_S512x3072_S_d0_1 : S512x3072.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S512x20000 : S_.BroadcastsInDim S512x20000 (![] : Fin 0 → Fin S512x20000.rank)
  reducesTo_S512x20000_S_d0_1 : S512x20000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S256x128 : S_.BroadcastsInDim S256x128 (![] : Fin 0 → Fin S256x128.rank)
  reducesTo_S256x128_S_d0_1 : S256x128.ReducesTo [0, 1] S_
  bcast_S_S512x256 : S_.BroadcastsInDim S512x256 (![] : Fin 0 → Fin S512x256.rank)
  reducesTo_S512x256_S_d0_1 : S512x256.ReducesTo [0, 1] S_
  bcast_S_S20000x512 : S_.BroadcastsInDim S20000x512 (![] : Fin 0 → Fin S20000x512.rank)
  reducesTo_S20000x512_S_d0_1 : S20000x512.ReducesTo [0, 1] S_
  bcast_S_S64x32 : S_.BroadcastsInDim S64x32 (![] : Fin 0 → Fin S64x32.rank)
  reducesTo_S64x32_S_d0_1 : S64x32.ReducesTo [0, 1] S_

variable [Facts]

def fn_part9 {F : FTy → Type} [FloatOps F] (main_v150 : IVec S_ 1) (main_v152 : IVec S262144 1) : IVec S_ 1 :=
  let main_c_61 : IVec S_ 1 := constantI S_ 1 1#1
  let main_v153 : IVec S_ 1 := (fun x v => Host.reduce IntOp.andi x v reducesTo_S262144_S_d0 h_S_) main_v152 main_c_61
  let main_v154 : IVec S_ 1 := andi main_v150 main_v153
  main_v154

def fn_part8 {F : FTy → Type} [FloatOps F] (main_arg2 : IVec S262144 32) (main_arg3 : IVec S262144 32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_c_54 : IVec S_ 32 := constantI S_ 32 0#32
  let main_v139 : IVec S262144 32 := broadcastInDim S262144 ![] bcast_S_S262144 main_c_54
  let main_v140 : IVec S262144 1 := cmpi .sge main_arg2 main_v139
  let main_c_55 : IVec S_ 1 := constantI S_ 1 1#1
  let main_v141 : IVec S_ 1 := (fun x v => Host.reduce IntOp.andi x v reducesTo_S262144_S_d0 h_S_) main_v140 main_c_55
  let main_v142 : IVec S_ 1 := andi main_v138 main_v141
  let main_c_56 : IVec S_ 32 := constantI S_ 32 8192#32
  let main_v143 : IVec S262144 32 := broadcastInDim S262144 ![] bcast_S_S262144 main_c_56
  let main_v144 : IVec S262144 1 := cmpi .slt main_arg2 main_v143
  let main_c_57 : IVec S_ 1 := constantI S_ 1 1#1
  let main_v145 : IVec S_ 1 := (fun x v => Host.reduce IntOp.andi x v reducesTo_S262144_S_d0 h_S_) main_v144 main_c_57
  let main_v146 : IVec S_ 1 := andi main_v142 main_v145
  let main_c_58 : IVec S_ 32 := constantI S_ 32 0#32
  let main_v147 : IVec S262144 32 := broadcastInDim S262144 ![] bcast_S_S262144 main_c_58
  let main_v148 : IVec S262144 1 := cmpi .sge main_arg3 main_v147
  let main_c_59 : IVec S_ 1 := constantI S_ 1 1#1
  let main_v149 : IVec S_ 1 := (fun x v => Host.reduce IntOp.andi x v reducesTo_S262144_S_d0 h_S_) main_v148 main_c_59
  let main_v150 : IVec S_ 1 := andi main_v146 main_v149
  let main_c_60 : IVec S_ 32 := constantI S_ 32 8192#32
  let main_v151 : IVec S262144 32 := broadcastInDim S262144 ![] bcast_S_S262144 main_c_60
  let main_v152 : IVec S262144 1 := cmpi .slt main_arg3 main_v151
  fn_part9 (F := F) main_v150 main_v152

def fn_part7 {F : FTy → Type} [FloatOps F] (main_arg2 : IVec S262144 32) (main_arg3 : IVec S262144 32) (main_arg27 : FVec F S20000x512 .f32) (main_arg28 : FVec F S64x32 .f32) (main_arg29 : FVec F S64 .f32) (main_v118 : IVec S_ 1) (main_v119 : FVec F S512x256 .f32) : IVec S_ 1 :=
  let main_cst_46 : FVec F S_ .f32 := constant S_ .f32 0x7F800000#32
  let main_v120 : FVec F S512x256 .f32 := broadcastInDim S512x256 ![] bcast_S_S512x256 main_cst_46
  let main_v121 : IVec S512x256 1 := cmpf .olt main_v119 main_v120
  let main_c_47 : IVec S_ 1 := constantI S_ 1 1#1
  let main_v122 : IVec S_ 1 := (fun x v => Host.reduce IntOp.andi x v reducesTo_S512x256_S_d0_1 h_S_) main_v121 main_c_47
  let main_v123 : IVec S_ 1 := andi main_v118 main_v122
  let main_v124 : FVec F S20000x512 .f32 := Host.absf main_arg27
  let main_cst_48 : FVec F S_ .f32 := constant S_ .f32 0x7F800000#32
  let main_v125 : FVec F S20000x512 .f32 := broadcastInDim S20000x512 ![] bcast_S_S20000x512 main_cst_48
  let main_v126 : IVec S20000x512 1 := cmpf .olt main_v124 main_v125
  let main_c_49 : IVec S_ 1 := constantI S_ 1 1#1
  let main_v127 : IVec S_ 1 := (fun x v => Host.reduce IntOp.andi x v reducesTo_S20000x512_S_d0_1 h_S_) main_v126 main_c_49
  let main_v128 : IVec S_ 1 := andi main_v123 main_v127
  let main_v129 : FVec F S64x32 .f32 := Host.absf main_arg28
  let main_cst_50 : FVec F S_ .f32 := constant S_ .f32 0x7F800000#32
  let main_v130 : FVec F S64x32 .f32 := broadcastInDim S64x32 ![] bcast_S_S64x32 main_cst_50
  let main_v131 : IVec S64x32 1 := cmpf .olt main_v129 main_v130
  let main_c_51 : IVec S_ 1 := constantI S_ 1 1#1
  let main_v132 : IVec S_ 1 := (fun x v => Host.reduce IntOp.andi x v reducesTo_S64x32_S_d0_1 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg2 main_arg3 main_v133 main_v136

def fn_part6 {F : FTy → Type} [FloatOps F] (main_arg2 : IVec S262144 32) (main_arg3 : IVec S262144 32) (main_arg23 : FVec F S64x64 .f32) (main_arg24 : FVec F S128x64 .f32) (main_arg25 : FVec F S256x128 .f32) (main_arg26 : FVec F S512x256 .f32) (main_arg27 : FVec F S20000x512 .f32) (main_arg28 : FVec F S64x32 .f32) (main_arg29 : FVec F S64 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S64x64 .f32 := Host.absf main_arg23
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S128x64 .f32 := Host.absf main_arg24
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S256x128 .f32 := Host.absf main_arg25
  let main_cst_44 : FVec F S_ .f32 := constant S_ .f32 0x7F800000#32
  let main_v115 : FVec F S256x128 .f32 := broadcastInDim S256x128 ![] bcast_S_S256x128 main_cst_44
  let main_v116 : IVec S256x128 1 := cmpf .olt main_v114 main_v115
  let main_c_45 : IVec S_ 1 := constantI S_ 1 1#1
  let main_v117 : IVec S_ 1 := (fun x v => Host.reduce IntOp.andi x v reducesTo_S256x128_S_d0_1 h_S_) main_v116 main_c_45
  let main_v118 : IVec S_ 1 := andi main_v113 main_v117
  let main_v119 : FVec F S512x256 .f32 := Host.absf main_arg26
  fn_part7 (F := F) main_arg2 main_arg3 main_arg27 main_arg28 main_arg29 main_v118 main_v119

def fn_part5 {F : FTy → Type} [FloatOps F] (main_arg2 : IVec S262144 32) (main_arg3 : IVec S262144 32) (main_arg20 : FVec F S64 .f32) (main_arg21 : FVec F S32x64 .f32) (main_arg22 : FVec F S32 .f32) (main_arg23 : FVec F S64x64 .f32) (main_arg24 : FVec F S128x64 .f32) (main_arg25 : FVec F S256x128 .f32) (main_arg26 : FVec F S512x256 .f32) (main_arg27 : FVec F S20000x512 .f32) (main_arg28 : FVec F S64x32 .f32) (main_arg29 : FVec F S64 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S32x64 .f32 := Host.absf main_arg21
  let main_cst_36 : FVec F S_ .f32 := constant S_ .f32 0x7F800000#32
  let main_v95 : FVec F S32x64 .f32 := broadcastInDim S32x64 ![] bcast_S_S32x64 main_cst_36
  let main_v96 : IVec S32x64 1 := cmpf .olt main_v94 main_v95
  let main_c_37 : IVec S_ 1 := constantI S_ 1 1#1
  let main_v97 : IVec S_ 1 := (fun x v => Host.reduce IntOp.andi x v reducesTo_S32x64_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg2 main_arg3 main_arg23 main_arg24 main_arg25 main_arg26 main_arg27 main_arg28 main_arg29 main_v98 main_v101 main_c_39

def fn_part4 {F : FTy → Type} [FloatOps F] (main_arg2 : IVec S262144 32) (main_arg3 : IVec S262144 32) (main_arg16 : FVec F S256 .f32) (main_arg17 : FVec F S128x256 .f32) (main_arg18 : FVec F S128 .f32) (main_arg19 : FVec F S64x128 .f32) (main_arg20 : FVec F S64 .f32) (main_arg21 : FVec F S32x64 .f32) (main_arg22 : FVec F S32 .f32) (main_arg23 : FVec F S64x64 .f32) (main_arg24 : FVec F S128x64 .f32) (main_arg25 : FVec F S256x128 .f32) (main_arg26 : FVec F S512x256 .f32) (main_arg27 : FVec F S20000x512 .f32) (main_arg28 : FVec F S64x32 .f32) (main_arg29 : FVec F S64 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S128x256 .f32 := Host.absf main_arg17
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S64x128 .f32 := Host.absf main_arg19
  let main_cst_32 : FVec F S_ .f32 := constant S_ .f32 0x7F800000#32
  fn_part5 (F := F) main_arg2 main_arg3 main_arg20 main_arg21 main_arg22 main_arg23 main_arg24 main_arg25 main_arg26 main_arg27 main_arg28 main_arg29 main_v83 main_v84 main_cst_32

def fn_part3 {F : FTy → Type} [FloatOps F] (main_arg2 : IVec S262144 32) (main_arg3 : IVec S262144 32) (main_arg13 : FVec F S512x20000 .f32) (main_arg14 : FVec F S512 .f32) (main_arg15 : FVec F S256x512 .f32) (main_arg16 : FVec F S256 .f32) (main_arg17 : FVec F S128x256 .f32) (main_arg18 : FVec F S128 .f32) (main_arg19 : FVec F S64x128 .f32) (main_arg20 : FVec F S64 .f32) (main_arg21 : FVec F S32x64 .f32) (main_arg22 : FVec F S32 .f32) (main_arg23 : FVec F S64x64 .f32) (main_arg24 : FVec F S128x64 .f32) (main_arg25 : FVec F S256x128 .f32) (main_arg26 : FVec F S512x256 .f32) (main_arg27 : FVec F S20000x512 .f32) (main_arg28 : FVec F S64x32 .f32) (main_arg29 : FVec F S64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S512x20000 .f32 := Host.absf main_arg13
  let main_cst_20 : FVec F S_ .f32 := constant S_ .f32 0x7F800000#32
  let main_v55 : FVec F S512x20000 .f32 := broadcastInDim S512x20000 ![] bcast_S_S512x20000 main_cst_20
  let main_v56 : IVec S512x20000 1 := cmpf .olt main_v54 main_v55
  let main_c_21 : IVec S_ 1 := constantI S_ 1 1#1
  let main_v57 : IVec S_ 1 := (fun x v => Host.reduce IntOp.andi x v reducesTo_S512x20000_S_d0_1 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S256x512 .f32 := Host.absf main_arg15
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg2 main_arg3 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg2 : IVec S262144 32) (main_arg3 : IVec S262144 32) (main_arg9 : FVec F S256x512 .f32) (main_arg10 : FVec F S256 .f32) (main_arg11 : FVec F S32x256 .f32) (main_arg12 : FVec F S32 .f32) (main_arg13 : FVec F S512x20000 .f32) (main_arg14 : FVec F S512 .f32) (main_arg15 : FVec F S256x512 .f32) (main_arg16 : FVec F S256 .f32) (main_arg17 : FVec F S128x256 .f32) (main_arg18 : FVec F S128 .f32) (main_arg19 : FVec F S64x128 .f32) (main_arg20 : FVec F S64 .f32) (main_arg21 : FVec F S32x64 .f32) (main_arg22 : FVec F S32 .f32) (main_arg23 : FVec F S64x64 .f32) (main_arg24 : FVec F S128x64 .f32) (main_arg25 : FVec F S256x128 .f32) (main_arg26 : FVec F S512x256 .f32) (main_arg27 : FVec F S20000x512 .f32) (main_arg28 : FVec F S64x32 .f32) (main_arg29 : FVec F S64 .f32) (main_v33 : IVec S_ 1) : IVec S_ 1 :=
  let main_v34 : FVec F S256x512 .f32 := Host.absf main_arg9
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S32x256 .f32 := Host.absf main_arg11
  let main_cst_16 : FVec F S_ .f32 := constant S_ .f32 0x7F800000#32
  let main_v45 : FVec F S32x256 .f32 := broadcastInDim S32x256 ![] bcast_S_S32x256 main_cst_16
  let main_v46 : IVec S32x256 1 := cmpf .olt main_v44 main_v45
  let main_c_17 : IVec S_ 1 := constantI S_ 1 1#1
  let main_v47 : IVec S_ 1 := (fun x v => Host.reduce IntOp.andi x v reducesTo_S32x256_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg2 main_arg3 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S262144 32) (main_arg3 : IVec S262144 32) (main_arg6 : FVec F S3 .f32) (main_arg7 : FVec F S512x3072 .f32) (main_arg8 : FVec F S512 .f32) (main_arg9 : FVec F S256x512 .f32) (main_arg10 : FVec F S256 .f32) (main_arg11 : FVec F S32x256 .f32) (main_arg12 : FVec F S32 .f32) (main_arg13 : FVec F S512x20000 .f32) (main_arg14 : FVec F S512 .f32) (main_arg15 : FVec F S256x512 .f32) (main_arg16 : FVec F S256 .f32) (main_arg17 : FVec F S128x256 .f32) (main_arg18 : FVec F S128 .f32) (main_arg19 : FVec F S64x128 .f32) (main_arg20 : FVec F S64 .f32) (main_arg21 : FVec F S32x64 .f32) (main_arg22 : FVec F S32 .f32) (main_arg23 : FVec F S64x64 .f32) (main_arg24 : FVec F S128x64 .f32) (main_arg25 : FVec F S256x128 .f32) (main_arg26 : FVec F S512x256 .f32) (main_arg27 : FVec F S20000x512 .f32) (main_arg28 : FVec F S64x32 .f32) (main_arg29 : FVec F S64 .f32) (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S512x3072 .f32 := Host.absf main_arg7
  let main_cst_8 : FVec F S_ .f32 := constant S_ .f32 0x7F800000#32
  let main_v25 : FVec F S512x3072 .f32 := broadcastInDim S512x3072 ![] bcast_S_S512x3072 main_cst_8
  let main_v26 : IVec S512x3072 1 := cmpf .olt main_v24 main_v25
  let main_c_9 : IVec S_ 1 := constantI S_ 1 1#1
  let main_v27 : IVec S_ 1 := (fun x v => Host.reduce IntOp.andi x v reducesTo_S512x3072_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S1024x8192 .f32) (main_arg1 : FVec F S1024x20000 .f32) (main_arg2 : IVec S262144 32) (main_arg3 : IVec S262144 32) (main_arg4 : FVec F S262144 .f32) (main_arg5 : FVec F S3x3 .f32) (main_arg6 : FVec F S3 .f32) (main_arg7 : FVec F S512x3072 .f32) (main_arg8 : FVec F S512 .f32) (main_arg9 : FVec F S256x512 .f32) (main_arg10 : FVec F S256 .f32) (main_arg11 : FVec F S32x256 .f32) (main_arg12 : FVec F S32 .f32) (main_arg13 : FVec F S512x20000 .f32) (main_arg14 : FVec F S512 .f32) (main_arg15 : FVec F S256x512 .f32) (main_arg16 : FVec F S256 .f32) (main_arg17 : FVec F S128x256 .f32) (main_arg18 : FVec F S128 .f32) (main_arg19 : FVec F S64x128 .f32) (main_arg20 : FVec F S64 .f32) (main_arg21 : FVec F S32x64 .f32) (main_arg22 : FVec F S32 .f32) (main_arg23 : FVec F S64x64 .f32) (main_arg24 : FVec F S128x64 .f32) (main_arg25 : FVec F S256x128 .f32) (main_arg26 : FVec F S512x256 .f32) (main_arg27 : FVec F S20000x512 .f32) (main_arg28 : FVec F S64x32 .f32) (main_arg29 : FVec F S64 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S1024x20000 .f32 := Host.absf main_arg1
  let main_cst_0 : FVec F S_ .f32 := constant S_ .f32 0x7F800000#32
  let main_v5 : FVec F S1024x20000 .f32 := broadcastInDim S1024x20000 ![] bcast_S_S1024x20000 main_cst_0
  let main_v6 : IVec S1024x20000 1 := cmpf .olt main_v4 main_v5
  let main_c_1 : IVec S_ 1 := constantI S_ 1 1#1
  let main_v7 : IVec S_ 1 := (fun x v => Host.reduce IntOp.andi x v reducesTo_S1024x20000_S_d0_1 h_S_) main_v6 main_c_1
  let main_v8 : IVec S_ 1 := andi main_v3 main_v7
  let main_v9 : FVec F S262144 .f32 := Host.absf main_arg4
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S3x3 .f32 := Host.absf main_arg5
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S1024x8192 : Shape := ⟨2, ![1024, 8192]⟩
abbrev S1024x20000 : Shape := ⟨2, ![1024, 20000]⟩
abbrev S262144 : Shape := ⟨1, ![262144]⟩
abbrev S3x3 : Shape := ⟨2, ![3, 3]⟩
abbrev S3 : Shape := ⟨1, ![3]⟩
abbrev S512x3072 : Shape := ⟨2, ![512, 3072]⟩
abbrev S512 : Shape := ⟨1, ![512]⟩
abbrev S256x512 : Shape := ⟨2, ![256, 512]⟩
abbrev S256 : Shape := ⟨1, ![256]⟩
abbrev S32x256 : Shape := ⟨2, ![32, 256]⟩
abbrev S32 : Shape := ⟨1, ![32]⟩
abbrev S512x20000 : Shape := ⟨2, ![512, 20000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S64x64 : Shape := ⟨2, ![64, 64]⟩
abbrev S128x64 : Shape := ⟨2, ![128, 64]⟩
abbrev S256x128 : Shape := ⟨2, ![256, 128]⟩
abbrev S512x256 : Shape := ⟨2, ![512, 256]⟩
abbrev S20000x512 : Shape := ⟨2, ![20000, 512]⟩
abbrev S64x32 : Shape := ⟨2, ![64, 32]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x1024 : Shape := ⟨2, ![8192, 1024]⟩
abbrev S1024x1024 : Shape := ⟨2, ![1024, 1024]⟩
abbrev S3x1 : Shape := ⟨2, ![3, 1]⟩
abbrev S8192x1024x1 : Shape := ⟨3, ![8192, 1024, 1]⟩
abbrev S1x1x3 : Shape := ⟨3, ![1, 1, 3]⟩
abbrev S8192x1024x3 : Shape := ⟨3, ![8192, 1024, 3]⟩
abbrev S1024x8x1024x3 : Shape := ⟨4, ![1024, 8, 1024, 3]⟩
abbrev S1024x1024x3 : Shape := ⟨3, ![1024, 1024, 3]⟩
abbrev S1024x3072 : Shape := ⟨2, ![1024, 3072]⟩
abbrev S3072x512 : Shape := ⟨2, ![3072, 512]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S256x32 : Shape := ⟨2, ![256, 32]⟩
abbrev S1024x32 : Shape := ⟨2, ![1024, 32]⟩
abbrev S1x32 : Shape := ⟨2, ![1, 32]⟩
abbrev S64x256 : Shape := ⟨2, ![64, 256]⟩
abbrev S64x512 : Shape := ⟨2, ![64, 512]⟩
abbrev S64x20000 : Shape := ⟨2, ![64, 20000]⟩
abbrev S1024x20480 : Shape := ⟨2, ![1024, 20480]⟩
abbrev S512x20480 : Shape := ⟨2, ![512, 20480]⟩
abbrev S20480x512 : Shape := ⟨2, ![20480, 512]⟩
abbrev S512x2560 : Shape := ⟨2, ![512, 2560]⟩
abbrev S2560x512 : Shape := ⟨2, ![2560, 512]⟩
abbrev S512x512 : Shape := ⟨2, ![512, 512]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩

abbrev nBuf : Space → Nat
  | .hbm => 244
  | .vmem => 23
  | .smem => 0
  | _ => 0

abbrev hbmTy0_0 (i : Nat) : BufTy := match i % 128 with
  | 0 => ⟨S1024x8192, .f32⟩
  | 1 => ⟨S1024x20000, .f32⟩
  | 2 => ⟨S262144, .i32⟩
  | 3 => ⟨S262144, .i32⟩
  | 4 => ⟨S262144, .f32⟩
  | 5 => ⟨S3x3, .f32⟩
  | 6 => ⟨S3, .f32⟩
  | 7 => ⟨S512x3072, .f32⟩
  | 8 => ⟨S512, .f32⟩
  | 9 => ⟨S256x512, .f32⟩
  | 10 => ⟨S256, .f32⟩
  | 11 => ⟨S32x256, .f32⟩
  | 12 => ⟨S32, .f32⟩
  | 13 => ⟨S512x20000, .f32⟩
  | 14 => ⟨S512, .f32⟩
  | 15 => ⟨S256x512, .f32⟩
  | 16 => ⟨S256, .f32⟩
  | 17 => ⟨S128x256, .f32⟩
  | 18 => ⟨S128, .f32⟩
  | 19 => ⟨S64x128, .f32⟩
  | 20 => ⟨S64, .f32⟩
  | 21 => ⟨S32x64, .f32⟩
  | 22 => ⟨S32, .f32⟩
  | 23 => ⟨S64x64, .f32⟩
  | 24 => ⟨S128x64, .f32⟩
  | 25 => ⟨S256x128, .f32⟩
  | 26 => ⟨S512x256, .f32⟩
  | 27 => ⟨S20000x512, .f32⟩
  | 28 => ⟨S64x32, .f32⟩
  | 29 => ⟨S64, .f32⟩
  | 30 => ⟨S_, .f32⟩
  | 31 => ⟨S8192x8192, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S_, .i32⟩
  | 40 => ⟨S262144, .i32⟩
  | 41 => ⟨S262144, .i1⟩
  | 42 => ⟨S_, .i32⟩
  | 43 => ⟨S262144, .i32⟩
  | 44 => ⟨S262144, .i32⟩
  | 45 => ⟨S262144, .i32⟩
  | 46 => ⟨S262144x1, .i32⟩
  | 47 => ⟨S262144x1, .i32⟩
  | 48 => ⟨S262144x2, .i32⟩
  | 49 => ⟨S8192x8192, .f32⟩
  | 50 => ⟨S8192x8192, .bf16⟩
  | 51 => ⟨S8192x1024, .f32⟩
  | 52 => ⟨S8192x1024, .bf16⟩
  | 53 => ⟨S8192x1024, .f32⟩
  | 54 => ⟨S8192x1024, .bf16⟩
  | 55 => ⟨S8192x1024, .f32⟩
  | 56 => ⟨S3x1, .f32⟩
  | 57 => ⟨S3, .f32⟩
  | 58 => ⟨S3x1, .f32⟩
  | 59 => ⟨S3, .f32⟩
  | 60 => ⟨S3x1, .f32⟩
  | 61 => ⟨S3, .f32⟩
  | 62 => ⟨S8192x1024x1, .f32⟩
  | 63 => ⟨S1x1x3, .f32⟩
  | 64 => ⟨S8192x1024x3, .f32⟩
  | 65 => ⟨S8192x1024x3, .f32⟩
  | 66 => ⟨S8192x1024x3, .f32⟩
  | 67 => ⟨S8192x1024x1, .f32⟩
  | 68 => ⟨S1x1x3, .f32⟩
  | 69 => ⟨S8192x1024x3, .f32⟩
  | 70 => ⟨S8192x1024x3, .f32⟩
  | 71 => ⟨S8192x1024x3, .f32⟩
  | 72 => ⟨S8192x1024x3, .f32⟩
  | 73 => ⟨S8192x1024x1, .f32⟩
  | 74 => ⟨S1x1x3, .f32⟩
  | 75 => ⟨S8192x1024x3, .f32⟩
  | 76 => ⟨S8192x1024x3, .f32⟩
  | 77 => ⟨S8192x1024x3, .f32⟩
  | 78 => ⟨S8192x1024x3, .f32⟩
  | 79 => ⟨S1x1x3, .f32⟩
  | 80 => ⟨S8192x1024x3, .f32⟩
  | 81 => ⟨S8192x1024x3, .f32⟩
  | 82 => ⟨S_, .f32⟩
  | 83 => ⟨S8192x1024x3, .f32⟩
  | 84 => ⟨S8192x1024x3, .f32⟩
  | 85 => ⟨S1024x8x1024x3, .f32⟩
  | 86 => ⟨S_, .f32⟩
  | 87 => ⟨S1024x1024x3, .f32⟩
  | 88 => ⟨S1024x1024x3, .f32⟩
  | 89 => ⟨S1024x3072, .f32⟩
  | 90 => ⟨S3072x512, .f32⟩
  | 91 => ⟨S1024x512, .f32⟩
  | 92 => ⟨S1x512, .f32⟩
  | 93 => ⟨S1024x512, .f32⟩
  | 94 => ⟨S1024x512, .f32⟩
  | 95 => ⟨S_, .f32⟩
  | 96 => ⟨S1024x512, .f32⟩
  | 97 => ⟨S1024x512, .f32⟩
  | 98 => ⟨S512x256, .f32⟩
  | 99 => ⟨S1024x256, .f32⟩
  | 100 => ⟨S1x256, .f32⟩
  | 101 => ⟨S1024x256, .f32⟩
  | 102 => ⟨S1024x256, .f32⟩
  | 103 => ⟨S_, .f32⟩
  | 104 => ⟨S1024x256, .f32⟩
  | 105 => ⟨S1024x256, .f32⟩
  | 106 => ⟨S256x32, .f32⟩
  | 107 => ⟨S1024x32, .f32⟩
  | 108 => ⟨S1x32, .f32⟩
  | 109 => ⟨S1024x32, .f32⟩
  | 110 => ⟨S1024x32, .f32⟩
  | 111 => ⟨S64x64, .f32⟩
  | 112 => ⟨S64x128, .f32⟩
  | 113 => ⟨S64x128, .f32⟩
  | 114 => ⟨S128x256, .f32⟩
  | 115 => ⟨S64x256, .f32⟩
  | 116 => ⟨S256x512, .f32⟩
  | 117 => ⟨S64x512, .f32⟩
  | 118 => ⟨S512x20000, .f32⟩
  | 119 => ⟨S64x20000, .f32⟩
  | 120 => ⟨S_, .f32⟩
  | 121 => ⟨S_, .f32⟩
  | 122 => ⟨S_, .f32⟩
  | 123 => ⟨S64x20000, .f32⟩
  | 124 => ⟨S64x20000, .f32⟩
  | 125 => ⟨S_, .f32⟩
  | 126 => ⟨S64x20000, .f32⟩
  | 127 => ⟨S64x20000, .f32⟩
  | _ => ⟨S1024x8192, .f32⟩

abbrev hbmTy0_1 (i : Nat) : BufTy := match i % 128 with
  | 0 => ⟨S_, .i32⟩
  | 1 => ⟨S_, .f32⟩
  | 2 => ⟨S1024x20480, .f32⟩
  | 3 => ⟨S_, .i32⟩
  | 4 => ⟨S_, .f32⟩
  | 5 => ⟨S512x20480, .f32⟩
  | 6 => ⟨S1024x20480, .bf16⟩
  | 7 => ⟨S20480x512, .f32⟩
  | 8 => ⟨S20480x512, .bf16⟩
  | 9 => ⟨S1024x512, .f32⟩
  | 10 => ⟨S1x512, .f32⟩
  | 11 => ⟨S1024x512, .f32⟩
  | 12 => ⟨S1024x512, .f32⟩
  | 13 => ⟨S_, .f32⟩
  | 14 => ⟨S1024x512, .f32⟩
  | 15 => ⟨S1024x512, .f32⟩
  | 16 => ⟨S_, .f32⟩
  | 17 => ⟨S1024x512, .f32⟩
  | 18 => ⟨S1024x512, .f32⟩
  | 19 => ⟨S_, .f32⟩
  | 20 => ⟨S1024x512, .f32⟩
  | 21 => ⟨S1024x512, .f32⟩
  | 22 => ⟨S1024x512, .f32⟩
  | 23 => ⟨S_, .f32⟩
  | 24 => ⟨S1024x512, .f32⟩
  | 25 => ⟨S1024x512, .f32⟩
  | 26 => ⟨S1024x512, .f32⟩
  | 27 => ⟨S512x256, .f32⟩
  | 28 => ⟨S1024x256, .f32⟩
  | 29 => ⟨S1x256, .f32⟩
  | 30 => ⟨S1024x256, .f32⟩
  | 31 => ⟨S1024x256, .f32⟩
  | 32 => ⟨S_, .f32⟩
  | 33 => ⟨S1024x256, .f32⟩
  | 34 => ⟨S1024x256, .f32⟩
  | 35 => ⟨S_, .f32⟩
  | 36 => ⟨S1024x256, .f32⟩
  | 37 => ⟨S1024x256, .f32⟩
  | 38 => ⟨S_, .f32⟩
  | 39 => ⟨S1024x256, .f32⟩
  | 40 => ⟨S1024x256, .f32⟩
  | 41 => ⟨S1024x256, .f32⟩
  | 42 => ⟨S_, .f32⟩
  | 43 => ⟨S1024x256, .f32⟩
  | 44 => ⟨S1024x256, .f32⟩
  | 45 => ⟨S1024x256, .f32⟩
  | 46 => ⟨S256x128, .f32⟩
  | 47 => ⟨S1024x128, .f32⟩
  | 48 => ⟨S1x128, .f32⟩
  | 49 => ⟨S1024x128, .f32⟩
  | 50 => ⟨S1024x128, .f32⟩
  | 51 => ⟨S_, .f32⟩
  | 52 => ⟨S1024x128, .f32⟩
  | 53 => ⟨S1024x128, .f32⟩
  | 54 => ⟨S_, .f32⟩
  | 55 => ⟨S1024x128, .f32⟩
  | 56 => ⟨S1024x128, .f32⟩
  | 57 => ⟨S_, .f32⟩
  | 58 => ⟨S1024x128, .f32⟩
  | 59 => ⟨S1024x128, .f32⟩
  | 60 => ⟨S1024x128, .f32⟩
  | 61 => ⟨S_, .f32⟩
  | 62 => ⟨S1024x128, .f32⟩
  | 63 => ⟨S1024x128, .f32⟩
  | 64 => ⟨S1024x128, .f32⟩
  | 65 => ⟨S128x64, .f32⟩
  | 66 => ⟨S1024x64, .f32⟩
  | 67 => ⟨S1x64, .f32⟩
  | 68 => ⟨S1024x64, .f32⟩
  | 69 => ⟨S1024x64, .f32⟩
  | 70 => ⟨S_, .f32⟩
  | 71 => ⟨S1024x64, .f32⟩
  | 72 => ⟨S1024x64, .f32⟩
  | 73 => ⟨S_, .f32⟩
  | 74 => ⟨S1024x64, .f32⟩
  | 75 => ⟨S1024x64, .f32⟩
  | 76 => ⟨S_, .f32⟩
  | 77 => ⟨S1024x64, .f32⟩
  | 78 => ⟨S1024x64, .f32⟩
  | 79 => ⟨S1024x64, .f32⟩
  | 80 => ⟨S_, .f32⟩
  | 81 => ⟨S1024x64, .f32⟩
  | 82 => ⟨S1024x64, .f32⟩
  | 83 => ⟨S1024x64, .f32⟩
  | 84 => ⟨S64x32, .f32⟩
  | 85 => ⟨S1024x32, .f32⟩
  | 86 => ⟨S1x32, .f32⟩
  | 87 => ⟨S1024x32, .f32⟩
  | 88 => ⟨S1024x32, .f32⟩
  | 89 => ⟨S_, .f32⟩
  | 90 => ⟨S1024x32, .f32⟩
  | 91 => ⟨S1024x32, .f32⟩
  | 92 => ⟨S_, .f32⟩
  | 93 => ⟨S1024x32, .f32⟩
  | 94 => ⟨S1024x32, .f32⟩
  | 95 => ⟨S1024x32, .f32⟩
  | 96 => ⟨S32x64, .f32⟩
  | 97 => ⟨S1024x64, .f32⟩
  | 98 => ⟨S1x64, .f32⟩
  | 99 => ⟨S1024x64, .f32⟩
  | 100 => ⟨S1024x64, .f32⟩
  | 101 => ⟨S_, .f32⟩
  | 102 => ⟨S1024, .f32⟩
  | 103 => ⟨S_, .f32⟩
  | 104 => ⟨S1024, .f32⟩
  | 105 => ⟨S1024, .f32⟩
  | 106 => ⟨S1024x1, .f32⟩
  | 107 => ⟨S1024x64, .f32⟩
  | 108 => ⟨S1024x64, .f32⟩
  | 109 => ⟨S1024x64, .f32⟩
  | 110 => ⟨S_, .f32⟩
  | 111 => ⟨S1024, .f32⟩
  | 112 => ⟨S1024x1, .f32⟩
  | 113 => ⟨S1024x64, .f32⟩
  | 114 => ⟨S1024x64, .f32⟩
  | 115 => ⟨S1024x20000, .f32⟩
  | _ => ⟨S1024x8192, .f32⟩

abbrev hbmTy (i : Nat) : BufTy := match i / 128 with
  | 0 => hbmTy0_0 i
  | 1 => hbmTy0_1 i
  | _ => ⟨S1024x8192, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S512x2560, .bf16⟩
  | .local _ .vmem, ⟨17, _⟩ => ⟨S512x2560, .bf16⟩
  | .local _ .vmem, ⟨18, _⟩ => ⟨S2560x512, .bf16⟩
  | .local _ .vmem, ⟨19, _⟩ => ⟨S2560x512, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_c : Ref sig .tc := ⟨.hbm, 32, rfl⟩
abbrev main_v1 : Ref sig .tc := ⟨.hbm, 33, rfl⟩
abbrev main_v2 : Ref sig .tc := ⟨.hbm, 34, rfl⟩
abbrev main_c_0 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_c_1 : Ref sig .tc := ⟨.hbm, 39, rfl⟩
abbrev main_v6 : Ref sig .tc := ⟨.hbm, 40, rfl⟩
abbrev main_v7 : Ref sig .tc := ⟨.hbm, 41, rfl⟩
abbrev main_c_2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call0_cst : Ref sig .tc := ⟨.hbm, 82, rfl⟩
abbrev main_call0_v0 : Ref sig .tc := ⟨.hbm, 83, rfl⟩
abbrev main_v47 : Ref sig .tc := ⟨.hbm, 84, rfl⟩
abbrev main_v48 : Ref sig .tc := ⟨.hbm, 85, rfl⟩
abbrev main_cst_3 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_cst : Ref sig .tc := ⟨.hbm, 95, rfl⟩
abbrev main_call1_v0 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call2_cst : Ref sig .tc := ⟨.hbm, 103, rfl⟩
abbrev main_call2_v0 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_4 : Ref sig .tc := ⟨.hbm, 120, rfl⟩
abbrev main_cst_5 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v78 : Ref sig .tc := ⟨.hbm, 127, rfl⟩
abbrev main_c_6 : Ref sig .tc := ⟨.hbm, 128, rfl⟩
abbrev main_call4_v0 : Ref sig .tc := ⟨.hbm, 129, rfl⟩
abbrev main_v79 : Ref sig .tc := ⟨.hbm, 130, rfl⟩
abbrev main_c_7 : Ref sig .tc := ⟨.hbm, 131, rfl⟩
abbrev main_call5_v0 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_call6_cst : Ref sig .tc := ⟨.hbm, 141, rfl⟩
abbrev main_call6_v0 : Ref sig .tc := ⟨.hbm, 142, rfl⟩
abbrev main_call6_v1 : Ref sig .tc := ⟨.hbm, 143, rfl⟩
abbrev main_call6_cst_0 : Ref sig .tc := ⟨.hbm, 144, rfl⟩
abbrev main_call6_v2 : Ref sig .tc := ⟨.hbm, 145, rfl⟩
abbrev main_call6_v3 : Ref sig .tc := ⟨.hbm, 146, rfl⟩
abbrev main_call6_cst_1 : Ref sig .tc := ⟨.hbm, 147, rfl⟩
abbrev main_call6_v4 : Ref sig .tc := ⟨.hbm, 148, rfl⟩
abbrev main_call6_v5 : Ref sig .tc := ⟨.hbm, 149, rfl⟩
abbrev main_call6_v6 : Ref sig .tc := ⟨.hbm, 150, rfl⟩
abbrev main_call6_cst_2 : Ref sig .tc := ⟨.hbm, 151, rfl⟩
abbrev main_call6_v7 : Ref sig .tc := ⟨.hbm, 152, rfl⟩
abbrev main_call6_v8 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_call7_cst : Ref sig .tc := ⟨.hbm, 160, rfl⟩
abbrev main_call7_v0 : Ref sig .tc := ⟨.hbm, 161, rfl⟩
abbrev main_call7_v1 : Ref sig .tc := ⟨.hbm, 162, rfl⟩
abbrev main_call7_cst_0 : Ref sig .tc := ⟨.hbm, 163, rfl⟩
abbrev main_call7_v2 : Ref sig .tc := ⟨.hbm, 164, rfl⟩
abbrev main_call7_v3 : Ref sig .tc := ⟨.hbm, 165, rfl⟩
abbrev main_call7_cst_1 : Ref sig .tc := ⟨.hbm, 166, rfl⟩
abbrev main_call7_v4 : Ref sig .tc := ⟨.hbm, 167, rfl⟩
abbrev main_call7_v5 : Ref sig .tc := ⟨.hbm, 168, rfl⟩
abbrev main_call7_v6 : Ref sig .tc := ⟨.hbm, 169, rfl⟩
abbrev main_call7_cst_2 : Ref sig .tc := ⟨.hbm, 170, rfl⟩
abbrev main_call7_v7 : Ref sig .tc := ⟨.hbm, 171, rfl⟩
abbrev main_call7_v8 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_call8_cst : Ref sig .tc := ⟨.hbm, 179, rfl⟩
abbrev main_call8_v0 : Ref sig .tc := ⟨.hbm, 180, rfl⟩
abbrev main_call8_v1 : Ref sig .tc := ⟨.hbm, 181, rfl⟩
abbrev main_call8_cst_0 : Ref sig .tc := ⟨.hbm, 182, rfl⟩
abbrev main_call8_v2 : Ref sig .tc := ⟨.hbm, 183, rfl⟩
abbrev main_call8_v3 : Ref sig .tc := ⟨.hbm, 184, rfl⟩
abbrev main_call8_cst_1 : Ref sig .tc := ⟨.hbm, 185, rfl⟩
abbrev main_call8_v4 : Ref sig .tc := ⟨.hbm, 186, rfl⟩
abbrev main_call8_v5 : Ref sig .tc := ⟨.hbm, 187, rfl⟩
abbrev main_call8_v6 : Ref sig .tc := ⟨.hbm, 188, rfl⟩
abbrev main_call8_cst_2 : Ref sig .tc := ⟨.hbm, 189, rfl⟩
abbrev main_call8_v7 : Ref sig .tc := ⟨.hbm, 190, rfl⟩
abbrev main_call8_v8 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_call9_cst : Ref sig .tc := ⟨.hbm, 198, rfl⟩
abbrev main_call9_v0 : Ref sig .tc := ⟨.hbm, 199, rfl⟩
abbrev main_call9_v1 : Ref sig .tc := ⟨.hbm, 200, rfl⟩
abbrev main_call9_cst_0 : Ref sig .tc := ⟨.hbm, 201, rfl⟩
abbrev main_call9_v2 : Ref sig .tc := ⟨.hbm, 202, rfl⟩
abbrev main_call9_v3 : Ref sig .tc := ⟨.hbm, 203, rfl⟩
abbrev main_call9_cst_1 : Ref sig .tc := ⟨.hbm, 204, rfl⟩
abbrev main_call9_v4 : Ref sig .tc := ⟨.hbm, 205, rfl⟩
abbrev main_call9_v5 : Ref sig .tc := ⟨.hbm, 206, rfl⟩
abbrev main_call9_v6 : Ref sig .tc := ⟨.hbm, 207, rfl⟩
abbrev main_call9_cst_2 : Ref sig .tc := ⟨.hbm, 208, rfl⟩
abbrev main_call9_v7 : Ref sig .tc := ⟨.hbm, 209, rfl⟩
abbrev main_call9_v8 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_cst_8 : Ref sig .tc := ⟨.hbm, 217, rfl⟩
abbrev main_v112 : Ref sig .tc := ⟨.hbm, 218, rfl⟩
abbrev main_v113 : Ref sig .tc := ⟨.hbm, 219, rfl⟩
abbrev main_cst_9 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_cst_10 : Ref sig .tc := ⟨.hbm, 229, rfl⟩
abbrev main_v122 : Ref sig .tc := ⟨.hbm, 230, rfl⟩
abbrev main_cst_11 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_cst_12 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 1, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2560x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  transposes_S1024x8192_S8192x1024_1_0 : S1024x8192.Transposes [1, 0] S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S3x3_S3x1_0_0 : S3x3.Slices ![0, 0] S3x1
  shapeCasts_S3x1_S3 : S3x1.ShapeCasts S3
  slices_S3x3_S3x1_0_1 : S3x3.Slices ![0, 1] S3x1
  slices_S3x3_S3x1_0_2 : S3x3.Slices ![0, 2] S3x1
  bcast_S8192x1024_S8192x1024x1_0_1 : S8192x1024.BroadcastsInDim S8192x1024x1 (![0, 1] : Fin 2 → Fin S8192x1024x1.rank)
  bcast_S3_S1x1x3_2 : S3.BroadcastsInDim S1x1x3 (![2] : Fin 1 → Fin S1x1x3.rank)
  bcast_S8192x1024x1_S8192x1024x3_0_1_2 : S8192x1024x1.BroadcastsInDim S8192x1024x3 (![0, 1, 2] : Fin 3 → Fin S8192x1024x3.rank)
  bcast_S1x1x3_S8192x1024x3_0_1_2 : S1x1x3.BroadcastsInDim S8192x1024x3 (![0, 1, 2] : Fin 3 → Fin S8192x1024x3.rank)
  bcast_S_S8192x1024x3 : S_.BroadcastsInDim S8192x1024x3 (![] : Fin 0 → Fin S8192x1024x3.rank)
  shapeCasts_S8192x1024x3_S1024x8x1024x3 : S8192x1024x3.ShapeCasts S1024x8x1024x3
  reducesTo_S1024x8x1024x3_S1024x1024x3_d1 : S1024x8x1024x3.ReducesTo [1] S1024x1024x3
  h_S_ : 0 < S_.numel
  transposes_S1024x1024x3_S1024x1024x3_1_0_2 : S1024x1024x3.Transposes [1, 0, 2] S1024x1024x3
  shapeCasts_S1024x1024x3_S1024x3072 : S1024x1024x3.ShapeCasts S1024x3072
  transposes_S512x3072_S3072x512_1_0 : S512x3072.Transposes [1, 0] S3072x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  transposes_S256x512_S512x256_1_0 : S256x512.Transposes [1, 0] S512x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  transposes_S32x256_S256x32_1_0 : S32x256.Transposes [1, 0] S256x32
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  transposes_S64x64_S64x64_1_0 : S64x64.Transposes [1, 0] S64x64
  transposes_S128x64_S64x128_1_0 : S128x64.Transposes [1, 0] S64x128
  transposes_S256x128_S128x256_1_0 : S256x128.Transposes [1, 0] S128x256
  transposes_S512x256_S256x512_1_0 : S512x256.Transposes [1, 0] S256x512
  transposes_S20000x512_S512x20000_1_0 : S20000x512.Transposes [1, 0] S512x20000
  bcast_S_S64x20000 : S_.BroadcastsInDim S64x20000 (![] : Fin 0 → Fin S64x20000.rank)
  pads_S1024x20000_S1024x20480_000_04800 : S1024x20000.Pads (![0, 0] : Fin 2 → Nat) ![0, 480] ![0, 0] S1024x20480
  pads_S512x20000_S512x20480_000_04800 : S512x20000.Pads (![0, 0] : Fin 2 → Nat) ![0, 480] ![0, 0] S512x20480
  transposes_S512x20480_S20480x512_1_0 : S512x20480.Transposes [1, 0] S20480x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  transposes_S128x256_S256x128_1_0 : S128x256.Transposes [1, 0] S256x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S64x128_S128x64_1_0 : S64x128.Transposes [1, 0] S128x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S32x64_S64x32_1_0 : S32x64.Transposes [1, 0] S64x32
  bcast_S_S1024x32 : S_.BroadcastsInDim S1024x32 (![] : Fin 0 → Fin S1024x32.rank)
  transposes_S64x32_S32x64_1_0 : S64x32.Transposes [1, 0] S32x64
  reducesTo_S1024x64_S1024_d1 : S1024x64.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  scatter_S8192x8192_S262144x2_S262144_n_01_01_1_wf : ScatterDims.WF S8192x8192 S262144x2 S262144 [] [0, 1] [0, 1] 1
  dot_S1024x1024_S1024x1024_S1024x1024_1_0_0_1_n_n_wf : DotDims.WF S1024x1024 S1024x1024 S1024x1024 [1] [0] [0] [1] [] []
  dot_S1024x3072_S3072x512_S1024x512_1_0_0_1_n_n_wf : DotDims.WF S1024x3072 S3072x512 S1024x512 [1] [0] [0] [1] [] []
  dot_S1024x512_S512x256_S1024x256_1_0_0_1_n_n_wf : DotDims.WF S1024x512 S512x256 S1024x256 [1] [0] [0] [1] [] []
  dot_S1024x256_S256x32_S1024x32_1_0_0_1_n_n_wf : DotDims.WF S1024x256 S256x32 S1024x32 [1] [0] [0] [1] [] []
  dot_S64x64_S64x128_S64x128_1_0_0_1_n_n_wf : DotDims.WF S64x64 S64x128 S64x128 [1] [0] [0] [1] [] []
  dot_S64x128_S128x256_S64x256_1_0_0_1_n_n_wf : DotDims.WF S64x128 S128x256 S64x256 [1] [0] [0] [1] [] []
  dot_S64x256_S256x512_S64x512_1_0_0_1_n_n_wf : DotDims.WF S64x256 S256x512 S64x512 [1] [0] [0] [1] [] []
  dot_S64x512_S512x20000_S64x20000_1_0_0_1_n_n_wf : DotDims.WF S64x512 S512x20000 S64x20000 [1] [0] [0] [1] [] []
  dot_S512x2560_S2560x512_S512x512_1_0_0_1_n_n_wf : DotDims.WF S512x2560 S2560x512 S512x512 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x64_S1024x64_1_0_0_1_n_n_wf : DotDims.WF S1024x32 S32x64 S1024x64 [1] [0] [0] [1] [] []
  dot_S1024x64_S64x20000_S1024x20000_1_0_0_1_n_n_wf : DotDims.WF S1024x64 S64x20000 S1024x20000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2560.size a ≤ S1024x20480.size a
  hwx2_0 : ∀ i : grid2.Coords, EltTy.bits .bf16 = 32 ∨ (Rect.block (s := S1024x20480) S512x2560.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x512.size a ≤ S20480x512.size a
  hwx2_1 : ∀ i : grid2.Coords, EltTy.bits .bf16 = 32 ∨ (Rect.block (s := S20480x512) S2560x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S1024x512.size a
  hwx2_2 : ∀ i : grid2.Coords, EltTy.bits .f32 = 32 ∨ (Rect.block (s := S1024x512) S512x512.size (cc2_transform_2 i) (hinb2_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x3072_S3072x512_S1024x512_1_0_0_1_n_n : DotDims S1024x3072 S3072x512 S1024x512 where
  lhsContracting := [1]
  rhsContracting := [0]
  lhsNonContracting := [0]
  rhsNonContracting := [1]
  lhsBatch := []
  rhsBatch := []
  wf := dot_S1024x3072_S3072x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x20000_S64x20000_1_0_0_1_n_n : DotDims S64x512 S512x20000 S64x20000 where
  lhsContracting := [1]
  rhsContracting := [0]
  lhsNonContracting := [0]
  rhsNonContracting := [1]
  lhsBatch := []
  rhsBatch := []
  wf := dot_S64x512_S512x20000_S64x20000_1_0_0_1_n_n_wf
def dot_S512x2560_S2560x512_S512x512_1_0_0_1_n_n : DotDims S512x2560 S2560x512 S512x512 where
  lhsContracting := [1]
  rhsContracting := [0]
  lhsNonContracting := [0]
  rhsNonContracting := [1]
  lhsBatch := []
  rhsBatch := []
  wf := dot_S512x2560_S2560x512_S512x512_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x20000_S1024x20000_1_0_0_1_n_n : DotDims S1024x64 S64x20000 S1024x20000 where
  lhsContracting := [1]
  rhsContracting := [0]
  lhsNonContracting := [0]
  rhsNonContracting := [1]
  lhsBatch := []
  rhsBatch := []
  wf := dot_S1024x64_S64x20000_S1024x20000_1_0_0_1_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v15) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v81) S512x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S2560x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1024x8192 : Shape := ⟨2, ![1024, 8192]⟩
abbrev S1024x20000 : Shape := ⟨2, ![1024, 20000]⟩
abbrev S262144 : Shape := ⟨1, ![262144]⟩
abbrev S3x3 : Shape := ⟨2, ![3, 3]⟩
abbrev S3 : Shape := ⟨1, ![3]⟩
abbrev S512x3072 : Shape := ⟨2, ![512, 3072]⟩
abbrev S512 : Shape := ⟨1, ![512]⟩
abbrev S256x512 : Shape := ⟨2, ![256, 512]⟩
abbrev S256 : Shape := ⟨1, ![256]⟩
abbrev S32x256 : Shape := ⟨2, ![32, 256]⟩
abbrev S32 : Shape := ⟨1, ![32]⟩
abbrev S512x20000 : Shape := ⟨2, ![512, 20000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S64x64 : Shape := ⟨2, ![64, 64]⟩
abbrev S128x64 : Shape := ⟨2, ![128, 64]⟩
abbrev S256x128 : Shape := ⟨2, ![256, 128]⟩
abbrev S512x256 : Shape := ⟨2, ![512, 256]⟩
abbrev S20000x512 : Shape := ⟨2, ![20000, 512]⟩
abbrev S64x32 : Shape := ⟨2, ![64, 32]⟩
abbrev S8192x1024 : Shape := ⟨2, ![8192, 1024]⟩
abbrev S262144x1 : Shape := ⟨2, ![262144, 1]⟩
abbrev S_ : Shape := ⟨0, ![]⟩
abbrev S262144x1024 : Shape := ⟨2, ![262144, 1024]⟩
abbrev S1x8192x1024 : Shape := ⟨3, ![1, 8192, 1024]⟩
abbrev S3x8192x1024 : Shape := ⟨3, ![3, 8192, 1024]⟩
abbrev S1024x8192x3 : Shape := ⟨3, ![1024, 8192, 3]⟩
abbrev S8388608x3 : Shape := ⟨2, ![8388608, 3]⟩
abbrev S1x3 : Shape := ⟨2, ![1, 3]⟩
abbrev S1024x1024x8x3 : Shape := ⟨4, ![1024, 1024, 8, 3]⟩
abbrev S1024x1024x3 : Shape := ⟨3, ![1024, 1024, 3]⟩
abbrev S1024x3072 : Shape := ⟨2, ![1024, 3072]⟩
abbrev S3072x512 : Shape := ⟨2, ![3072, 512]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S256x32 : Shape := ⟨2, ![256, 32]⟩
abbrev S1024x32 : Shape := ⟨2, ![1024, 32]⟩
abbrev S1x32 : Shape := ⟨2, ![1, 32]⟩
abbrev S64x256 : Shape := ⟨2, ![64, 256]⟩
abbrev S64x512 : Shape := ⟨2, ![64, 512]⟩
abbrev S64x20000 : Shape := ⟨2, ![64, 20000]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩

abbrev nBuf : Space → Nat
  | .hbm => 232
  | .vmem => 0
  | .smem => 0
  | _ => 0

abbrev hbmTy0_0 (i : Nat) : BufTy := match i % 128 with
  | 0 => ⟨S1024x8192, .f32⟩
  | 1 => ⟨S1024x20000, .f32⟩
  | 2 => ⟨S262144, .i32⟩
  | 3 => ⟨S262144, .i32⟩
  | 4 => ⟨S262144, .f32⟩
  | 5 => ⟨S3x3, .f32⟩
  | 6 => ⟨S3, .f32⟩
  | 7 => ⟨S512x3072, .f32⟩
  | 8 => ⟨S512, .f32⟩
  | 9 => ⟨S256x512, .f32⟩
  | 10 => ⟨S256, .f32⟩
  | 11 => ⟨S32x256, .f32⟩
  | 12 => ⟨S32, .f32⟩
  | 13 => ⟨S512x20000, .f32⟩
  | 14 => ⟨S512, .f32⟩
  | 15 => ⟨S256x512, .f32⟩
  | 16 => ⟨S256, .f32⟩
  | 17 => ⟨S128x256, .f32⟩
  | 18 => ⟨S128, .f32⟩
  | 19 => ⟨S64x128, .f32⟩
  | 20 => ⟨S64, .f32⟩
  | 21 => ⟨S32x64, .f32⟩
  | 22 => ⟨S32, .f32⟩
  | 23 => ⟨S64x64, .f32⟩
  | 24 => ⟨S128x64, .f32⟩
  | 25 => ⟨S256x128, .f32⟩
  | 26 => ⟨S512x256, .f32⟩
  | 27 => ⟨S20000x512, .f32⟩
  | 28 => ⟨S64x32, .f32⟩
  | 29 => ⟨S64, .f32⟩
  | 30 => ⟨S8192x1024, .f32⟩
  | 31 => ⟨S262144x1, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S262144x1024, .f32⟩
  | 41 => ⟨S262144x1024, .f32⟩
  | 42 => ⟨S262144x1024, .f32⟩
  | 43 => ⟨S_, .f32⟩
  | 44 => ⟨S8192x1024, .f32⟩
  | 45 => ⟨S262144x1, .i32⟩
  | 46 => ⟨S8192x1024, .f32⟩
  | 47 => ⟨S262144x1, .f32⟩
  | 48 => ⟨S_, .i32⟩
  | 49 => ⟨S262144, .i32⟩
  | 50 => ⟨S262144, .i1⟩
  | 51 => ⟨S_, .i32⟩
  | 52 => ⟨S262144, .i32⟩
  | 53 => ⟨S262144, .i32⟩
  | 54 => ⟨S262144, .i32⟩
  | 55 => ⟨S262144x1, .i32⟩
  | 56 => ⟨S262144x1024, .f32⟩
  | 57 => ⟨S262144x1024, .f32⟩
  | 58 => ⟨S262144x1024, .f32⟩
  | 59 => ⟨S_, .f32⟩
  | 60 => ⟨S8192x1024, .f32⟩
  | 61 => ⟨S262144x1, .i32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S1x8192x1024, .f32⟩
  | 68 => ⟨S1x8192x1024, .f32⟩
  | 69 => ⟨S1x8192x1024, .f32⟩
  | 70 => ⟨S3x8192x1024, .f32⟩
  | 71 => ⟨S1024x8192x3, .f32⟩
  | 72 => ⟨S8388608x3, .f32⟩
  | 73 => ⟨S3x3, .f32⟩
  | 74 => ⟨S8388608x3, .f32⟩
  | 75 => ⟨S1x3, .f32⟩
  | 76 => ⟨S8388608x3, .f32⟩
  | 77 => ⟨S8388608x3, .f32⟩
  | 78 => ⟨S1024x8192x3, .f32⟩
  | 79 => ⟨S_, .f32⟩
  | 80 => ⟨S1024x8192x3, .f32⟩
  | 81 => ⟨S1024x8192x3, .f32⟩
  | 82 => ⟨S1024x1024x8x3, .f32⟩
  | 83 => ⟨S_, .f32⟩
  | 84 => ⟨S1024x1024x3, .f32⟩
  | 85 => ⟨S1024x3072, .f32⟩
  | 86 => ⟨S3072x512, .f32⟩
  | 87 => ⟨S1024x512, .f32⟩
  | 88 => ⟨S1x512, .f32⟩
  | 89 => ⟨S1024x512, .f32⟩
  | 90 => ⟨S1024x512, .f32⟩
  | 91 => ⟨S_, .f32⟩
  | 92 => ⟨S1024x512, .f32⟩
  | 93 => ⟨S1024x512, .f32⟩
  | 94 => ⟨S512x256, .f32⟩
  | 95 => ⟨S1024x256, .f32⟩
  | 96 => ⟨S1x256, .f32⟩
  | 97 => ⟨S1024x256, .f32⟩
  | 98 => ⟨S1024x256, .f32⟩
  | 99 => ⟨S_, .f32⟩
  | 100 => ⟨S1024x256, .f32⟩
  | 101 => ⟨S1024x256, .f32⟩
  | 102 => ⟨S256x32, .f32⟩
  | 103 => ⟨S1024x32, .f32⟩
  | 104 => ⟨S1x32, .f32⟩
  | 105 => ⟨S1024x32, .f32⟩
  | 106 => ⟨S1024x32, .f32⟩
  | 107 => ⟨S64x64, .f32⟩
  | 108 => ⟨S64x128, .f32⟩
  | 109 => ⟨S64x128, .f32⟩
  | 110 => ⟨S128x256, .f32⟩
  | 111 => ⟨S64x256, .f32⟩
  | 112 => ⟨S256x512, .f32⟩
  | 113 => ⟨S64x512, .f32⟩
  | 114 => ⟨S512x20000, .f32⟩
  | 115 => ⟨S64x20000, .f32⟩
  | 116 => ⟨S_, .f32⟩
  | 117 => ⟨S_, .f32⟩
  | 118 => ⟨S_, .f32⟩
  | 119 => ⟨S64x20000, .f32⟩
  | 120 => ⟨S64x20000, .f32⟩
  | 121 => ⟨S_, .f32⟩
  | 122 => ⟨S64x20000, .f32⟩
  | 123 => ⟨S64x20000, .f32⟩
  | 124 => ⟨S20000x512, .f32⟩
  | 125 => ⟨S1024x512, .f32⟩
  | 126 => ⟨S1x512, .f32⟩
  | 127 => ⟨S1024x512, .f32⟩
  | _ => ⟨S1024x8192, .f32⟩

abbrev hbmTy0_1 (i : Nat) : BufTy := match i % 128 with
  | 0 => ⟨S1024x512, .f32⟩
  | 1 => ⟨S_, .f32⟩
  | 2 => ⟨S1024x512, .f32⟩
  | 3 => ⟨S1024x512, .f32⟩
  | 4 => ⟨S_, .f32⟩
  | 5 => ⟨S1024x512, .f32⟩
  | 6 => ⟨S1024x512, .f32⟩
  | 7 => ⟨S_, .f32⟩
  | 8 => ⟨S1024x512, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S1024x512, .f32⟩
  | 15 => ⟨S512x256, .f32⟩
  | 16 => ⟨S1024x256, .f32⟩
  | 17 => ⟨S1x256, .f32⟩
  | 18 => ⟨S1024x256, .f32⟩
  | 19 => ⟨S1024x256, .f32⟩
  | 20 => ⟨S_, .f32⟩
  | 21 => ⟨S1024x256, .f32⟩
  | 22 => ⟨S1024x256, .f32⟩
  | 23 => ⟨S_, .f32⟩
  | 24 => ⟨S1024x256, .f32⟩
  | 25 => ⟨S1024x256, .f32⟩
  | 26 => ⟨S_, .f32⟩
  | 27 => ⟨S1024x256, .f32⟩
  | 28 => ⟨S1024x256, .f32⟩
  | 29 => ⟨S1024x256, .f32⟩
  | 30 => ⟨S_, .f32⟩
  | 31 => ⟨S1024x256, .f32⟩
  | 32 => ⟨S1024x256, .f32⟩
  | 33 => ⟨S1024x256, .f32⟩
  | 34 => ⟨S256x128, .f32⟩
  | 35 => ⟨S1024x128, .f32⟩
  | 36 => ⟨S1x128, .f32⟩
  | 37 => ⟨S1024x128, .f32⟩
  | 38 => ⟨S1024x128, .f32⟩
  | 39 => ⟨S_, .f32⟩
  | 40 => ⟨S1024x128, .f32⟩
  | 41 => ⟨S1024x128, .f32⟩
  | 42 => ⟨S_, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x128, .f32⟩
  | 49 => ⟨S_, .f32⟩
  | 50 => ⟨S1024x128, .f32⟩
  | 51 => ⟨S1024x128, .f32⟩
  | 52 => ⟨S1024x128, .f32⟩
  | 53 => ⟨S128x64, .f32⟩
  | 54 => ⟨S1024x64, .f32⟩
  | 55 => ⟨S1x64, .f32⟩
  | 56 => ⟨S1024x64, .f32⟩
  | 57 => ⟨S1024x64, .f32⟩
  | 58 => ⟨S_, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S_, .f32⟩
  | 65 => ⟨S1024x64, .f32⟩
  | 66 => ⟨S1024x64, .f32⟩
  | 67 => ⟨S1024x64, .f32⟩
  | 68 => ⟨S_, .f32⟩
  | 69 => ⟨S1024x64, .f32⟩
  | 70 => ⟨S1024x64, .f32⟩
  | 71 => ⟨S1024x64, .f32⟩
  | 72 => ⟨S64x32, .f32⟩
  | 73 => ⟨S1024x32, .f32⟩
  | 74 => ⟨S1x32, .f32⟩
  | 75 => ⟨S1024x32, .f32⟩
  | 76 => ⟨S1024x32, .f32⟩
  | 77 => ⟨S_, .f32⟩
  | 78 => ⟨S1024x32, .f32⟩
  | 79 => ⟨S1024x32, .f32⟩
  | 80 => ⟨S_, .f32⟩
  | 81 => ⟨S1024x32, .f32⟩
  | 82 => ⟨S1024x32, .f32⟩
  | 83 => ⟨S1024x32, .f32⟩
  | 84 => ⟨S32x64, .f32⟩
  | 85 => ⟨S1024x64, .f32⟩
  | 86 => ⟨S1x64, .f32⟩
  | 87 => ⟨S1024x64, .f32⟩
  | 88 => ⟨S1024x64, .f32⟩
  | 89 => ⟨S_, .f32⟩
  | 90 => ⟨S1024, .f32⟩
  | 91 => ⟨S_, .f32⟩
  | 92 => ⟨S1024, .f32⟩
  | 93 => ⟨S1024, .f32⟩
  | 94 => ⟨S1024x1, .f32⟩
  | 95 => ⟨S1024x64, .f32⟩
  | 96 => ⟨S1024x64, .f32⟩
  | 97 => ⟨S1024x64, .f32⟩
  | 98 => ⟨S_, .f32⟩
  | 99 => ⟨S1024, .f32⟩
  | 100 => ⟨S1024x1, .f32⟩
  | 101 => ⟨S1024x64, .f32⟩
  | 102 => ⟨S1024x64, .f32⟩
  | 103 => ⟨S1024x20000, .f32⟩
  | _ => ⟨S1024x8192, .f32⟩

abbrev hbmTy (i : Nat) : BufTy := match i / 128 with
  | 0 => hbmTy0_0 i
  | 1 => hbmTy0_1 i
  | _ => ⟨S1024x8192, .f32⟩

abbrev bufTy : (tb : Table) → Fin (tcTables nBuf tb) → BufTy
  | .hbm, ⟨i, _⟩ => hbmTy i
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_1 : Ref sig .tc := ⟨.hbm, 48, rfl⟩
abbrev main_v15 : Ref sig .tc := ⟨.hbm, 49, rfl⟩
abbrev main_v16 : Ref sig .tc := ⟨.hbm, 50, rfl⟩
abbrev main_c_2 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_3 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_4 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call0_cst : Ref sig .tc := ⟨.hbm, 79, rfl⟩
abbrev main_call0_v0 : Ref sig .tc := ⟨.hbm, 80, rfl⟩
abbrev main_v42 : Ref sig .tc := ⟨.hbm, 81, rfl⟩
abbrev main_v43 : Ref sig .tc := ⟨.hbm, 82, rfl⟩
abbrev main_cst_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call1_cst : Ref sig .tc := ⟨.hbm, 91, rfl⟩
abbrev main_call1_v0 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_call2_cst : Ref sig .tc := ⟨.hbm, 99, rfl⟩
abbrev main_call2_v0 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_6 : Ref sig .tc := ⟨.hbm, 116, rfl⟩
abbrev main_cst_7 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_cst_0 : Ref sig .tc := ⟨.hbm, 132, rfl⟩
abbrev main_call4_v2 : Ref sig .tc := ⟨.hbm, 133, rfl⟩
abbrev main_call4_v3 : Ref sig .tc := ⟨.hbm, 134, rfl⟩
abbrev main_call4_cst_1 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_cst_2 : Ref sig .tc := ⟨.hbm, 139, rfl⟩
abbrev main_call4_v7 : Ref sig .tc := ⟨.hbm, 140, rfl⟩
abbrev main_call4_v8 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_call5_cst : Ref sig .tc := ⟨.hbm, 148, rfl⟩
abbrev main_call5_v0 : Ref sig .tc := ⟨.hbm, 149, rfl⟩
abbrev main_call5_v1 : Ref sig .tc := ⟨.hbm, 150, rfl⟩
abbrev main_call5_cst_0 : Ref sig .tc := ⟨.hbm, 151, rfl⟩
abbrev main_call5_v2 : Ref sig .tc := ⟨.hbm, 152, rfl⟩
abbrev main_call5_v3 : Ref sig .tc := ⟨.hbm, 153, rfl⟩
abbrev main_call5_cst_1 : Ref sig .tc := ⟨.hbm, 154, rfl⟩
abbrev main_call5_v4 : Ref sig .tc := ⟨.hbm, 155, rfl⟩
abbrev main_call5_v5 : Ref sig .tc := ⟨.hbm, 156, rfl⟩
abbrev main_call5_v6 : Ref sig .tc := ⟨.hbm, 157, rfl⟩
abbrev main_call5_cst_2 : Ref sig .tc := ⟨.hbm, 158, rfl⟩
abbrev main_call5_v7 : Ref sig .tc := ⟨.hbm, 159, rfl⟩
abbrev main_call5_v8 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_call6_cst : Ref sig .tc := ⟨.hbm, 167, rfl⟩
abbrev main_call6_v0 : Ref sig .tc := ⟨.hbm, 168, rfl⟩
abbrev main_call6_v1 : Ref sig .tc := ⟨.hbm, 169, rfl⟩
abbrev main_call6_cst_0 : Ref sig .tc := ⟨.hbm, 170, rfl⟩
abbrev main_call6_v2 : Ref sig .tc := ⟨.hbm, 171, rfl⟩
abbrev main_call6_v3 : Ref sig .tc := ⟨.hbm, 172, rfl⟩
abbrev main_call6_cst_1 : Ref sig .tc := ⟨.hbm, 173, rfl⟩
abbrev main_call6_v4 : Ref sig .tc := ⟨.hbm, 174, rfl⟩
abbrev main_call6_v5 : Ref sig .tc := ⟨.hbm, 175, rfl⟩
abbrev main_call6_v6 : Ref sig .tc := ⟨.hbm, 176, rfl⟩
abbrev main_call6_cst_2 : Ref sig .tc := ⟨.hbm, 177, rfl⟩
abbrev main_call6_v7 : Ref sig .tc := ⟨.hbm, 178, rfl⟩
abbrev main_call6_v8 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_call7_cst : Ref sig .tc := ⟨.hbm, 186, rfl⟩
abbrev main_call7_v0 : Ref sig .tc := ⟨.hbm, 187, rfl⟩
abbrev main_call7_v1 : Ref sig .tc := ⟨.hbm, 188, rfl⟩
abbrev main_call7_cst_0 : Ref sig .tc := ⟨.hbm, 189, rfl⟩
abbrev main_call7_v2 : Ref sig .tc := ⟨.hbm, 190, rfl⟩
abbrev main_call7_v3 : Ref sig .tc := ⟨.hbm, 191, rfl⟩
abbrev main_call7_cst_1 : Ref sig .tc := ⟨.hbm, 192, rfl⟩
abbrev main_call7_v4 : Ref sig .tc := ⟨.hbm, 193, rfl⟩
abbrev main_call7_v5 : Ref sig .tc := ⟨.hbm, 194, rfl⟩
abbrev main_call7_v6 : Ref sig .tc := ⟨.hbm, 195, rfl⟩
abbrev main_call7_cst_2 : Ref sig .tc := ⟨.hbm, 196, rfl⟩
abbrev main_call7_v7 : Ref sig .tc := ⟨.hbm, 197, rfl⟩
abbrev main_call7_v8 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_cst_8 : Ref sig .tc := ⟨.hbm, 205, rfl⟩
abbrev main_v102 : Ref sig .tc := ⟨.hbm, 206, rfl⟩
abbrev main_v103 : Ref sig .tc := ⟨.hbm, 207, rfl⟩
abbrev main_cst_9 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_cst_10 : Ref sig .tc := ⟨.hbm, 217, rfl⟩
abbrev main_v112 : Ref sig .tc := ⟨.hbm, 218, rfl⟩
abbrev main_cst_11 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_cst_12 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩

abbrev nD : Nat := 1
abbrev τ : Topo := Topo.v7x

variable {F : FTy → Type} [FloatOps F]

class Facts₀ : Prop where
  transposes_S1024x8192_S8192x1024_1_0 : S1024x8192.Transposes [1, 0] S8192x1024
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x1024_0_1 : S262144x1.BroadcastsInDim S262144x1024 (![0, 1] : Fin 2 → Fin S262144x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S3x8192x1024_d0 : Shape.Concatenates [S1x8192x1024, S1x8192x1024, S1x8192x1024] S3x8192x1024 0
  transposes_S3x8192x1024_S1024x8192x3_2_1_0 : S3x8192x1024.Transposes [2, 1, 0] S1024x8192x3
  shapeCasts_S1024x8192x3_S8388608x3 : S1024x8192x3.ShapeCasts S8388608x3
  transposes_S3x3_S3x3_1_0 : S3x3.Transposes [1, 0] S3x3
  bcast_S3_S1x3_1 : S3.BroadcastsInDim S1x3 (![1] : Fin 1 → Fin S1x3.rank)
  bcast_S1x3_S8388608x3_0_1 : S1x3.BroadcastsInDim S8388608x3 (![0, 1] : Fin 2 → Fin S8388608x3.rank)
  shapeCasts_S8388608x3_S1024x8192x3 : S8388608x3.ShapeCasts S1024x8192x3
  bcast_S_S1024x8192x3 : S_.BroadcastsInDim S1024x8192x3 (![] : Fin 0 → Fin S1024x8192x3.rank)
  shapeCasts_S1024x8192x3_S1024x1024x8x3 : S1024x8192x3.ShapeCasts S1024x1024x8x3
  reducesTo_S1024x1024x8x3_S1024x1024x3_d2 : S1024x1024x8x3.ReducesTo [2] S1024x1024x3
  h_S_ : 0 < S_.numel
  shapeCasts_S1024x1024x3_S1024x3072 : S1024x1024x3.ShapeCasts S1024x3072
  transposes_S512x3072_S3072x512_1_0 : S512x3072.Transposes [1, 0] S3072x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  transposes_S256x512_S512x256_1_0 : S256x512.Transposes [1, 0] S512x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  transposes_S32x256_S256x32_1_0 : S32x256.Transposes [1, 0] S256x32
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  transposes_S64x64_S64x64_1_0 : S64x64.Transposes [1, 0] S64x64
  transposes_S128x64_S64x128_1_0 : S128x64.Transposes [1, 0] S64x128
  transposes_S256x128_S128x256_1_0 : S256x128.Transposes [1, 0] S128x256
  transposes_S512x256_S256x512_1_0 : S512x256.Transposes [1, 0] S256x512
  transposes_S20000x512_S512x20000_1_0 : S20000x512.Transposes [1, 0] S512x20000
  bcast_S_S64x20000 : S_.BroadcastsInDim S64x20000 (![] : Fin 0 → Fin S64x20000.rank)
  transposes_S512x20000_S20000x512_1_0 : S512x20000.Transposes [1, 0] S20000x512
  transposes_S128x256_S256x128_1_0 : S128x256.Transposes [1, 0] S256x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S64x128_S128x64_1_0 : S64x128.Transposes [1, 0] S128x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S32x64_S64x32_1_0 : S32x64.Transposes [1, 0] S64x32
  bcast_S_S1024x32 : S_.BroadcastsInDim S1024x32 (![] : Fin 0 → Fin S1024x32.rank)
  transposes_S64x32_S32x64_1_0 : S64x32.Transposes [1, 0] S32x64
  reducesTo_S1024x64_S1024_d1 : S1024x64.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  gather_S8192x1024_S262144x1_S262144x1024_1_0_n_n_0_1_11024_wf : GatherDims.WF S8192x1024 S262144x1 S262144x1024 [1] [0] [] [0] [] 1 ![1, 1024]
  scatter_S8192x1024_S262144x1_S262144x1024_1_0_0_1_wf : ScatterDims.WF S8192x1024 S262144x1 S262144x1024 [1] [0] [0] 1
  dot_S8388608x3_S3x3_S8388608x3_1_0_0_1_n_n_wf : DotDims.WF S8388608x3 S3x3 S8388608x3 [1] [0] [0] [1] [] []
  dot_S1024x3072_S3072x512_S1024x512_1_0_0_1_n_n_wf : DotDims.WF S1024x3072 S3072x512 S1024x512 [1] [0] [0] [1] [] []
  dot_S1024x512_S512x256_S1024x256_1_0_0_1_n_n_wf : DotDims.WF S1024x512 S512x256 S1024x256 [1] [0] [0] [1] [] []
  dot_S1024x256_S256x32_S1024x32_1_0_0_1_n_n_wf : DotDims.WF S1024x256 S256x32 S1024x32 [1] [0] [0] [1] [] []
  dot_S64x64_S64x128_S64x128_1_0_0_1_n_n_wf : DotDims.WF S64x64 S64x128 S64x128 [1] [0] [0] [1] [] []
  dot_S64x128_S128x256_S64x256_1_0_0_1_n_n_wf : DotDims.WF S64x128 S128x256 S64x256 [1] [0] [0] [1] [] []
  dot_S64x256_S256x512_S64x512_1_0_0_1_n_n_wf : DotDims.WF S64x256 S256x512 S64x512 [1] [0] [0] [1] [] []
  dot_S64x512_S512x20000_S64x20000_1_0_0_1_n_n_wf : DotDims.WF S64x512 S512x20000 S64x20000 [1] [0] [0] [1] [] []
  dot_S1024x20000_S20000x512_S1024x512_1_0_0_1_n_n_wf : DotDims.WF S1024x20000 S20000x512 S1024x512 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x64_S1024x64_1_0_0_1_n_n_wf : DotDims.WF S1024x32 S32x64 S1024x64 [1] [0] [0] [1] [] []
  dot_S1024x64_S64x20000_S1024x20000_1_0_0_1_n_n_wf : DotDims.WF S1024x64 S64x20000 S1024x20000 [1] [0] [0] [1] [] []

variable [Facts₀]

def gather_S8192x1024_S262144x1_S262144x1024_1_0_n_n_0_1_11024 : GatherDims S8192x1024 S262144x1 S262144x1024 where
  offsetDims := [1]
  collapsedSliceDims := [0]
  operandBatchingDims := []
  startIndicesBatchingDims := []
  startIndexMap := [0]
  indexVectorDim := 1
  sliceSizes := ![1, 1024]
  wf := gather_S8192x1024_S262144x1_S262144x1024_1_0_n_n_0_1_11024_wf
def scatter_S8192x1024_S262144x1_S262144x1024_1_0_0_1 : ScatterDims S8192x1024 S262144x1 S262144x1024 where
  updateWindowDims := [1]
  insertedWindowDims := [0]
  scatterDimsToOperandDims := [0]
  indexVectorDim := 1
  wf := scatter_S8192x1024_S262144x1_S262144x1024_1_0_0_1_wf
def dot_S8388608x3_S3x3_S8388608x3_1_0_0_1_n_n : DotDims S8388608x3 S3x3 S8388608x3 where
  lhsContracting := [1]
  rhsContracting := [0]
  lhsNonContracting := [0]
  rhsNonContracting := [1]
  lhsBatch := []
  rhsBatch := []
  wf := dot_S8388608x3_S3x3_S8388608x3_1_0_0_1_n_n_wf
def dot_S1024x3072_S3072x512_S1024x512_1_0_0_1_n_n : DotDims S1024x3072 S3072x512 S1024x512 where
  lhsContracting := [1]
  rhsContracting := [0]
  lhsNonContracting := [0]
  rhsNonContracting := [1]
  lhsBatch := []
  rhsBatch := []
  wf := dot_S1024x3072_S3072x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x20000_S64x20000_1_0_0_1_n_n : DotDims S64x512 S512x20000 S64x20000 where
  lhsContracting := [1]
  rhsContracting := [0]
  lhsNonContracting := [0]
  rhsNonContracting := [1]
  lhsBatch := []
  rhsBatch := []
  wf := dot_S64x512_S512x20000_S64x20000_1_0_0_1_n_n_wf
def dot_S1024x20000_S20000x512_S1024x512_1_0_0_1_n_n : DotDims S1024x20000 S20000x512 S1024x512 where
  lhsContracting := [1]
  rhsContracting := [0]
  lhsNonContracting := [0]
  rhsNonContracting := [1]
  lhsBatch := []
  rhsBatch := []
  wf := dot_S1024x20000_S20000x512_S1024x512_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x20000_S1024x20000_1_0_0_1_n_n : DotDims S1024x64 S64x20000 S1024x20000 where
  lhsContracting := [1]
  rhsContracting := [0]
  lhsNonContracting := [0]
  rhsNonContracting := [1]
  lhsBatch := []
  rhsBatch := []
  wf := dot_S1024x64_S64x20000_S1024x20000_1_0_0_1_n_n_wf

class Facts : Prop extends Facts₀ where

variable [Facts]
-- ==== Proof.K.R0Runs.lean ====
import proofs.«415579_j11768210391563_2_alg».proof.Proof.Gen.Kernel.Launch
import proofs.«415579_j11768210391563_2_alg».proof.Proof.Gen.Kernel.Skeleton
import proofs.«415579_j11768210391563_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

abbrev scM0_0 : Memref sig .tc .vmem S1024x1024 .f32 := Memref.whole cc0_scratch0

theorem hz0 : (![0, 0] : Fin 2 → Nat) = fun _ => 0 := funext fun a => by fin_cases a <;> rfl

def rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem PhiA0_eq (c : Dev nD) :
    (Pipeline.ΦA spec0 c : sProp 𝕄) = iprop((∃ d, owns (c : Thread nD τ) scM0_0 fullShare d) ∗ rest0 (F := F) c) := by
  unfold Pipeline.ΦA rest0
  rw [Pipeline.scopedRest_split_of_list spec0 c [cc0_scratch0] (by decide) (by decide)]
  simp only [scM0_0, owns_whole, bigSepL]
  exact BI.Entails.antisymm BI.sep_assoc BI.sep_assoc'

end Cert.Kernel.Hand

end
-- ==== Proof.K.R0RunA.lean ====
import proofs.«415579_j11768210391563_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)

set_option maxHeartbeats 4000000 in

def kernelRun0_A (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

theorem acc0_A (hc0 : cond0_0 i) (hc1 : ¬cond0_1 i) (x0 : Vec F S1024x1024 .bf16) (x1 : Vec F S1024x1024 .bf16) (f) :
    arg6.view.read (Elt F) (arg6.view.writes (Elt F) f (kernelRun0_A c i arg3 harg3 arg4 harg4 arg5 harg5 arg6 harg6 hc0 hc1 x0 x1).2.1) = k0_pay2 k0_pay1 x0 x1 := by
  refine (View.read_writes_eq_canon _ _ _ (View.cover_of_tiledL _ S1024x1024.size ?_)).trans ?_
  · sl_kernel_rfl
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, View.ld_unit_zero hz0 _ x0, View.ld_unit_zero hz0 _ x1]

end Cert.Kernel.Hand

end
-- ==== Proof.K.R0RunB.lean ====
import proofs.«415579_j11768210391563_2_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)

set_option maxHeartbeats 4000000 in

def kernelRun0_B (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

theorem acc0_B (hc0 : ¬cond0_0 i) (hc1 : ¬cond0_1 i) (x0 : Vec F S1024x1024 .bf16) (x1 : Vec F S1024x1024 .bf16) (xs0 : Vec F S1024x1024 .f32) (f) :
    arg6.view.read (Elt F) (arg6.view.writes (Elt F) f (kernelRun0_B c i arg3 harg3 arg4 harg4 arg5 harg5 arg6 harg6 hc0 hc1 x0 x1 xs0).2.1) = k0_pay2 xs0 x0 x1 := by
  refine (View.read_writes_eq_canon _ _ _ (View.cover_of_tiledL _ S1024x1024.size ?_)).trans ?_
  · sl_kernel_rfl
  unfold kernelRun0_B
  dsimp only
  sl_unfold_words
  rw [View.canon_unit_zero hz0]
  simp only [View.readAt_eq_ld, harg3.read_unread, harg4.read_unread, harg6.read_unread, View.ld_unit_zero hz0 _ x0, View.ld_unit_zero hz0 _ x1, View.ld_unit_zero hz0 _ xs0]

end Cert.Kernel.Hand

end
-- ==== Proof.K.R0RunC.lean ====
import proofs.«415579_j11768210391563_2_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)

set_option maxHeartbeats 4000000 in

def kernelRun0_C (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

theorem acc0_C (hc0 : ¬cond0_0 i) (hc1 : cond0_1 i) (x0 : Vec F S1024x1024 .bf16) (x1 : Vec F S1024x1024 .bf16) (xs0 : Vec F S1024x1024 .f32) (f) :
    arg6.view.read (Elt F) (arg6.view.writes (Elt F) f (kernelRun0_C c i arg3 harg3 arg4 harg4 arg5 harg5 arg6 harg6 hc0 hc1 x0 x1 xs0).2.1) = k0_pay2 xs0 x0 x1 := by
  refine (View.read_writes_eq_canon _ _ _ (View.cover_of_tiledL _ S1024x1024.size ?_)).trans ?_
  · sl_kernel_rfl
  unfold kernelRun0_C
  dsimp only
  sl_unfold_words
  rw [View.canon_unit_zero hz0]
  simp only [View.readAt_eq_ld, harg3.read_unread, harg4.read_unread, harg6.read_unread, View.ld_unit_zero hz0 _ x0, View.ld_unit_zero hz0 _ x1, View.ld_unit_zero hz0 _ xs0]

theorem out0_C (hc0 : ¬cond0_0 i) (hc1 : cond0_1 i) (x0 : Vec F S1024x1024 .bf16) (x1 : Vec F S1024x1024 .bf16) (xs0 : Vec F S1024x1024 .f32) (f) :
    arg5.view.read (Elt F) (arg5.view.writes (Elt F) f (kernelRun0_C c i arg3 harg3 arg4 harg4 arg5 harg5 arg6 harg6 hc0 hc1 x0 x1 xs0).1) = k0_pay2 xs0 x0 x1 := by
  refine (View.read_writes_eq_canon _ _ _ (View.cover_of_tiledL _ S1024x1024.size ?_)).trans ?_
  · sl_kernel_rfl
  unfold kernelRun0_C
  dsimp only
  sl_unfold_words
  rw [View.canon_unit_zero hz0, View.readCov_unit_zero (S := S1024x1024) _ hz0]
  simp only [View.readAt_eq_ld, harg3.read_unread, harg4.read_unread, harg6.read_unread, View.ld_unit_zero hz0 _ x0, View.ld_unit_zero hz0 _ x1, View.ld_unit_zero hz0 _ xs0]

end Cert.Kernel.Hand

end
-- ==== Proof.K.R0Body.lean ====
import proofs.«415579_j11768210391563_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc0 (c : Dev nD) : (n : ℕ) → n < cfg0.N → Vec F S1024x1024 .f32
  | 0, hn => k0_pay2 k0_pay1 (iblk0 V c 0 ⟨0, hn⟩) (iblk0 V c 1 ⟨0, hn⟩)
  | n + 1, hn => k0_pay2 (if (n + 1) % 8 = 0 then k0_pay1 else acc0 c n (Nat.lt_of_succ_lt hn)) (iblk0 V c 0 ⟨n + 1, hn⟩) (iblk0 V c 1 ⟨n + 1, hn⟩)

theorem acc0_reset (c : Dev nD) (t : Fin cfg0.N) (h0 : t.val % 8 = 0) :
    acc0 V c t.val t.isLt = k0_pay2 k0_pay1 (iblk0 V c 0 t) (iblk0 V c 1 t) := by
  obtain ⟨_ | n, hn⟩ := t
  · rfl
  · exact congrArg (k0_pay2 · _ _) (if_pos h0)

theorem acc0_add (c : Dev nD) (t : Fin cfg0.N) (h0 : ¬t.val % 8 = 0) :
    acc0 V c t.val t.isLt = k0_pay2 (acc0 V c (t.val - 1) (Nat.lt_of_le_of_lt (Nat.sub_le _ _) t.isLt)) (iblk0 V c 0 t) (iblk0 V c 1 t) := by
  obtain ⟨_ | n, hn⟩ := t
  · exact absurd (Nat.zero_mod _) h0
  · exact congrArg (k0_pay2 · _ _) (if_neg h0)

def PhiS0 (c : Dev nD) : (n : ℕ) → n ≤ cfg0.N → sProp 𝕄
  | 0, _ => Pipeline.ΦA spec0 c
  | n + 1, hn => iprop(owns (c : Thread nD τ) scM0_0 fullShare (acc0 V c n hn) ∗ rest0 (F := F) c)

theorem PhiS0_pos (c : Dev nD) (n : ℕ) (h : n ≤ cfg0.N) (hz : n ≠ 0) :
    PhiS0 V c n h = iprop(owns (c : Thread nD τ) scM0_0 fullShare (acc0 V c (n - 1) (by omega)) ∗ rest0 (F := F) c) := by
  cases n with
  | zero => exact absurd rfl hz
  | succ n => rfl

theorem PhiS0_some (c : Dev nD) (n : ℕ) (h : n ≤ cfg0.N) :
    PhiS0 V c n h ⊢ iprop((∃ d, owns (c : Thread nD τ) scM0_0 fullShare d) ∗ rest0 (F := F) c) := by
  cases n with
  | zero => show (Pipeline.ΦA spec0 c : sProp 𝕄) ⊢ _; rw [PhiA0_eq]
  | succ n =>
    show iprop(owns (c : Thread nD τ) scM0_0 fullShare (acc0 V c n h) ∗ rest0 (F := F) c) ⊢ _
    iintro ⟨HS0, Hg⟩
    isplitl [HS0]; · iexists _; iexact HS0
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = acc0 V c t.val t.isLt := rfl

set_option maxHeartbeats 4800000 in

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop(PhiS0 V c (t.val + 1) t.isLt ∗ (dat0 V c).owesAt () t.castSucc
        ∗ (dat0 V c).leavesExact 0 t ∗ (dat0 V c).leavesExact 1 t ∗ (dat0 V c).leavesExact 2 t))
  unfold bodyAt0
  simp only [before0_0_of V (dat0 V c) rfl (fun _ => rfl), before0_1_of V (dat0 V c) rfl (fun _ => rfl)]
  rw [show (dat0 V c).Φ t.castSucc = PhiS0 V c t.val (Nat.le_of_lt t.isLt) from rfl,
    show PhiS0 V c (t.val + 1) t.isLt = iprop(owns (c : Thread nD τ) scM0_0 fullShare (acc0 V c t.val t.isLt) ∗ rest0 (F := F) c) from rfl,
    show (dat0 V c).leavesExact 0 t = owns (c : Thread nD τ) (ms0_0 t) fullShare (iblk0 V c 0 t) from by
      unfold Dat.leavesExact; rw [liveAt0_0 t]; try rfl,
    show (dat0 V c).leavesExact 1 t = owns (c : Thread nD τ) (ms0_1 t) fullShare (iblk0 V c 1 t) from by
      unfold Dat.leavesExact; rw [liveAt0_1 t]; try rfl]
  by_cases h1 : t.val % 8 = 7
  · have h0 : ¬t.val % 8 = 0 := by omega
    have hz : t.val ≠ 0 := by omega
    rw [show (dat0 V c).leavesExact 2 t = owns (c : Thread nD τ) (ms0_2 t) fullShare (acc0 V c t.val t.isLt) from by
      unfold Dat.leavesExact; rw [liveAt0_2 t ((hcond0_1 t).mpr h1)]; try rfl,
      PhiS0_pos V c _ _ hz, acc0_add V c t h0]
    iintro ⟨⟨HS0, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact acc0_C ..
      iexact Hg
    isplitl [Ho]; · iexact Ho
    isplitl [H0]; · iexact H0
    isplitl [H1]; · iexact H1
    unfold owns; iexists _; isplitr
    swap; · iexact H2
    ipureintro; exact out0_C ..
  · rw [Dat.leavesExact_idle (dat0 V c) 2 t (idleAt0_2 t (fun h => h1 ((hcond0_1 t).mp h))) (noFlush0_2 t (fun h => h1 ((hcond0_1 t).mp h)))]
    by_cases h0 : t.val % 8 = 0
    · rw [acc0_reset V c t h0]
      iintro ⟨HΦ, Ho, ⟨%d0, H0⟩, ⟨%d1, H1⟩, ⟨%d2, H2⟩⟩
      ihave H := PhiS0_some V c _ _ $$ HΦ
      icases H with ⟨HS0, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc0_A ..
        iexact Hg
      isplitl [Ho]; · iexact Ho
      isplitl [H0]; · iexact H0
      isplitl [H1]; · iexact H1
      iexists _; iexact H2
    · have hz : t.val ≠ 0 := by omega
      rw [PhiS0_pos V c _ _ hz, acc0_add V c t h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc0_B ..
        iexact Hg
      isplitl [Ho]; · iexact Ho
      isplitl [H0]; · iexact H0
      isplitl [H1]; · iexact H1
      iexists _; iexact H2

theorem hout0 (c : Dev nD) : (dat0 V c).Φ (Fin.last cfg0.N) ⊢ Pipeline.ΦA spec0 c := by
  rw [PhiA0_eq]; exact PhiS0_some V c (Fin.last cfg0.N).val (Nat.le_of_lt_succ (Fin.last cfg0.N).isLt)

end Cert.Kernel.Hand

end
-- ==== Proof.K.R1Runs.lean ====
import proofs.«415579_j11768210391563_2_alg».proof.Proof.Gen.Kernel.Launch
import proofs.«415579_j11768210391563_2_alg».proof.Proof.Gen.Kernel.Skeleton
import proofs.«415579_j11768210391563_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev scM1_0 : Memref sig .tc .vmem S1024x1024 .f32 := Memref.whole cc1_scratch0

theorem hz1 : (![0, 0] : Fin 2 → Nat) = fun _ => 0 := funext fun a => by fin_cases a <;> rfl

def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem PhiA1_eq (c : Dev nD) :
    (Pipeline.ΦA spec1 c : sProp 𝕄) = iprop((∃ d, owns (c : Thread nD τ) scM1_0 fullShare d) ∗ rest1 (F := F) c) := by
  unfold Pipeline.ΦA rest1
  rw [Pipeline.scopedRest_split_of_list spec1 c [cc1_scratch0] (by decide) (by decide)]
  simp only [scM1_0, owns_whole, bigSepL]
  exact BI.Entails.antisymm BI.sep_assoc BI.sep_assoc'

end Cert.Kernel.Hand

end
-- ==== Proof.K.R1RunA.lean ====
import proofs.«415579_j11768210391563_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

set_option maxHeartbeats 4000000 in

def kernelRun1_A (hc0 : cond1_0 i) (hc1 : ¬cond1_1 i)
    (x0 : Vec F S1024x1024 .bf16) (x1 : Vec F S1024x1024 .bf16) (x2 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__spmm2_fused_kernel i arg3 harg3 arg4 harg4 arg5 harg5 arg6 harg6 arg7 harg7) K } := by
  refine ⟨[], ?_, fun xi3 E K => ?run⟩
  case run =>
    simp only [cc1__spmm2_fused_kernel_eq_skeleton]; unfold cc1__spmm2_fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

theorem acc1_A (hc0 : cond1_0 i) (hc1 : ¬cond1_1 i) (x0 : Vec F S1024x1024 .bf16) (x1 : Vec F S1024x1024 .bf16) (x2 : Vec F S1024x1024 .f32) (f) :
    arg7.view.read (Elt F) (arg7.view.writes (Elt F) f (kernelRun1_A c i arg3 harg3 arg4 harg4 arg5 harg5 arg6 harg6 arg7 harg7 hc0 hc1 x0 x1 x2).2.1) = k1_pay2 k1_pay1 x0 x1 := by
  refine (View.read_writes_eq_canon _ _ _ (View.cover_of_tiledL _ S1024x1024.size ?_)).trans ?_
  · sl_kernel_rfl
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, harg5.read_unread, View.ld_unit_zero (S := S1024x1024) hz1]

end Cert.Kernel.Hand

end
-- ==== Proof.K.R1RunB.lean ====
import proofs.«415579_j11768210391563_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

set_option maxHeartbeats 4000000 in

def kernelRun1_B (hc0 : ¬cond1_0 i) (hc1 : ¬cond1_1 i)
    (x0 : Vec F S1024x1024 .bf16) (x1 : Vec F S1024x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__spmm2_fused_kernel i arg3 harg3 arg4 harg4 arg5 harg5 arg6 harg6 arg7 harg7) K } := by
  refine ⟨[], ?_, fun xi3 E K => ?run⟩
  case run =>
    simp only [cc1__spmm2_fused_kernel_eq_skeleton]; unfold cc1__spmm2_fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

theorem acc1_B (hc0 : ¬cond1_0 i) (hc1 : ¬cond1_1 i) (x0 : Vec F S1024x1024 .bf16) (x1 : Vec F S1024x1024 .bf16) (x2 : Vec F S1024x1024 .f32) (xs0 : Vec F S1024x1024 .f32) (f) :
    arg7.view.read (Elt F) (arg7.view.writes (Elt F) f (kernelRun1_B c i arg3 harg3 arg4 harg4 arg5 harg5 arg6 harg6 arg7 harg7 hc0 hc1 x0 x1 x2 xs0).2.1) = k1_pay2 xs0 x0 x1 := by
  refine (View.read_writes_eq_canon _ _ _ (View.cover_of_tiledL _ S1024x1024.size ?_)).trans ?_
  · sl_kernel_rfl
  unfold kernelRun1_B
  dsimp only
  sl_unfold_words
  rw [View.canon_unit_zero hz1]
  simp only [View.readAt_eq_ld, harg3.read_unread, harg4.read_unread, harg5.read_unread, harg7.read_unread, View.ld_unit_zero (S := S1024x1024) hz1]

end Cert.Kernel.Hand

end
-- ==== Proof.K.R1RunC.lean ====
import proofs.«415579_j11768210391563_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

set_option maxHeartbeats 4000000 in

def kernelRun1_C (hc0 : ¬cond1_0 i) (hc1 : cond1_1 i)
    (x0 : Vec F S1024x1024 .bf16) (x1 : Vec F S1024x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__spmm2_fused_kernel i arg3 harg3 arg4 harg4 arg5 harg5 arg6 harg6 arg7 harg7) K } := by
  refine ⟨?_, ?_, fun E K => ?run⟩
  case run =>
    simp only [cc1__spmm2_fused_kernel_eq_skeleton]; unfold cc1__spmm2_fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

theorem acc1_C (hc0 : ¬cond1_0 i) (hc1 : cond1_1 i) (x0 : Vec F S1024x1024 .bf16) (x1 : Vec F S1024x1024 .bf16) (x2 : Vec F S1024x1024 .f32) (xs0 : Vec F S1024x1024 .f32) (f) :
    arg7.view.read (Elt F) (arg7.view.writes (Elt F) f (kernelRun1_C c i arg3 harg3 arg4 harg4 arg5 harg5 arg6 harg6 arg7 harg7 hc0 hc1 x0 x1 x2 xs0).2.1) = k1_pay2 xs0 x0 x1 := by
  refine (View.read_writes_eq_canon _ _ _ (View.cover_of_tiledL _ S1024x1024.size ?_)).trans ?_
  · sl_kernel_rfl
  unfold kernelRun1_C
  dsimp only
  sl_unfold_words
  rw [View.canon_unit_zero hz1]
  simp only [View.readAt_eq_ld, harg3.read_unread, harg4.read_unread, harg5.read_unread, harg7.read_unread, View.ld_unit_zero (S := S1024x1024) hz1]

theorem out1_C (hc0 : ¬cond1_0 i) (hc1 : cond1_1 i) (x0 : Vec F S1024x1024 .bf16) (x1 : Vec F S1024x1024 .bf16) (x2 : Vec F S1024x1024 .f32) (xs0 : Vec F S1024x1024 .f32) (f) :
    arg6.view.read (Elt F) (arg6.view.writes (Elt F) f (kernelRun1_C c i arg3 harg3 arg4 harg4 arg5 harg5 arg6 harg6 arg7 harg7 hc0 hc1 x0 x1 x2 xs0).1) = k1_pay3 (k1_pay2 xs0 x0 x1) x2 := by
  refine (View.read_writes_eq_canon _ _ _ (View.cover_of_tiledL _ S1024x1024.size ?_)).trans ?_
  · sl_kernel_rfl
  unfold kernelRun1_C
  dsimp only
  sl_unfold_words
  rw [View.canon_unit_zero hz1, View.readCov_unit_zero (S := S1024x1024) _ hz1]
  simp only [View.readAt_eq_ld, harg3.read_unread, harg4.read_unread, harg5.read_unread, harg7.read_unread, View.ld_unit_zero (S := S1024x1024) hz1]

end Cert.Kernel.Hand

end
-- ==== Proof.K.R1Body.lean ====
import proofs.«415579_j11768210391563_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc1 (c : Dev nD) : (n : ℕ) → n < cfg1.N → Vec F S1024x1024 .f32
  | 0, hn => k1_pay2 k1_pay1 (iblk1 V c 0 ⟨0, hn⟩) (iblk1 V c 1 ⟨0, hn⟩)
  | n + 1, hn => k1_pay2 (if (n + 1) % 8 = 0 then k1_pay1 else acc1 c n (Nat.lt_of_succ_lt hn)) (iblk1 V c 0 ⟨n + 1, hn⟩) (iblk1 V c 1 ⟨n + 1, hn⟩)

theorem acc1_reset (c : Dev nD) (t : Fin cfg1.N) (h0 : t.val % 8 = 0) :
    acc1 V c t.val t.isLt = k1_pay2 k1_pay1 (iblk1 V c 0 t) (iblk1 V c 1 t) := by
  obtain ⟨_ | n, hn⟩ := t
  · rfl
  · exact congrArg (k1_pay2 · _ _) (if_pos h0)

theorem acc1_add (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) (iblk1 V c 1 t) := by
  obtain ⟨_ | n, hn⟩ := t
  · exact absurd (Nat.zero_mod _) h0
  · exact congrArg (k1_pay2 · _ _) (if_neg h0)

def PhiS1 (c : Dev nD) : (n : ℕ) → n ≤ cfg1.N → sProp 𝕄
  | 0, _ => Pipeline.ΦA spec1 c
  | n + 1, hn => iprop(owns (c : Thread nD τ) scM1_0 fullShare (acc1 V c n hn) ∗ rest1 (F := F) c)

theorem PhiS1_pos (c : Dev nD) (n : ℕ) (h : n ≤ cfg1.N) (hz : n ≠ 0) :
    PhiS1 V c n h = iprop(owns (c : Thread nD τ) scM1_0 fullShare (acc1 V c (n - 1) (by omega)) ∗ rest1 (F := F) c) := by
  cases n with
  | zero => exact absurd rfl hz
  | succ n => rfl

theorem PhiS1_some (c : Dev nD) (n : ℕ) (h : n ≤ cfg1.N) :
    PhiS1 V c n h ⊢ iprop((∃ d, owns (c : Thread nD τ) scM1_0 fullShare d) ∗ rest1 (F := F) c) := by
  cases n with
  | zero => show (Pipeline.ΦA spec1 c : sProp 𝕄) ⊢ _; rw [PhiA1_eq]
  | succ n =>
    show iprop(owns (c : Thread nD τ) scM1_0 fullShare (acc1 V c n h) ∗ rest1 (F := F) c) ⊢ _
    iintro ⟨HS0, Hg⟩
    isplitl [HS0]; · iexists _; iexact HS0
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = k1_pay3 (acc1 V c t.val t.isLt) (iblk1 V c 2 t) := rfl

set_option maxHeartbeats 4800000 in

theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) (fun _ =>
      iprop(PhiS1 V c (t.val + 1) t.isLt ∗ (dat1 V c).owesAt () t.castSucc
        ∗ (dat1 V c).leavesExact 0 t ∗ (dat1 V c).leavesExact 1 t ∗ (dat1 V c).leavesExact 2 t ∗ (dat1 V c).leavesExact 3 t))
  unfold bodyAt1
  simp only [before1_0_of V (dat1 V c) rfl (fun _ => rfl), before1_1_of V (dat1 V c) rfl (fun _ => rfl), before1_2_of V (dat1 V c) rfl (fun _ => rfl)]
  rw [show (dat1 V c).Φ t.castSucc = PhiS1 V c t.val (Nat.le_of_lt t.isLt) from rfl,
    show PhiS1 V c (t.val + 1) t.isLt = iprop(owns (c : Thread nD τ) scM1_0 fullShare (acc1 V c t.val t.isLt) ∗ rest1 (F := F) c) from rfl,
    show (dat1 V c).leavesExact 0 t = owns (c : Thread nD τ) (ms1_0 t) fullShare (iblk1 V c 0 t) from by
      unfold Dat.leavesExact; rw [liveAt1_0 t]; try rfl,
    show (dat1 V c).leavesExact 1 t = owns (c : Thread nD τ) (ms1_1 t) fullShare (iblk1 V c 1 t) from by
      unfold Dat.leavesExact; rw [liveAt1_1 t]; try rfl,
    show (dat1 V c).leavesExact 2 t = owns (c : Thread nD τ) (ms1_2 t) fullShare (iblk1 V c 2 t) from by
      unfold Dat.leavesExact; rw [liveAt1_2 t]; try rfl]
  by_cases h1 : t.val % 8 = 7
  · have h0 : ¬t.val % 8 = 0 := by omega
    have hz : t.val ≠ 0 := by omega
    rw [show (dat1 V c).leavesExact 3 t = owns (c : Thread nD τ) (ms1_3 t) fullShare (k1_pay3 (acc1 V c t.val t.isLt) (iblk1 V c 2 t)) from by
      unfold Dat.leavesExact; rw [liveAt1_3 t ((hcond1_1 t).mpr h1)]; try rfl,
      PhiS1_pos V c _ _ hz, acc1_add V c t h0]
    iintro ⟨⟨HS0, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact acc1_C ..
      iexact Hg
    isplitl [Ho]; · iexact Ho
    isplitl [H0]; · iexact H0
    isplitl [H1]; · iexact H1
    isplitl [H2]; · iexact H2
    unfold owns; iexists _; isplitr
    swap; · iexact H3
    ipureintro; exact out1_C ..
  · rw [Dat.leavesExact_idle (dat1 V c) 3 t (idleAt1_3 t (fun h => h1 ((hcond1_1 t).mp h))) (noFlush1_3 t (fun h => h1 ((hcond1_1 t).mp h)))]
    by_cases h0 : t.val % 8 = 0
    · rw [acc1_reset V c t h0]
      iintro ⟨HΦ, Ho, ⟨%d0, H0⟩, ⟨%d1, H1⟩, ⟨%d2, H2⟩, ⟨%d3, H3⟩⟩
      ihave H := PhiS1_some V c _ _ $$ HΦ
      icases H with ⟨HS0, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact acc1_A ..
        iexact Hg
      isplitl [Ho]; · iexact Ho
      isplitl [H0]; · iexact H0
      isplitl [H1]; · iexact H1
      isplitl [H2]; · iexact H2
      iexists _; iexact H3
    · have hz : t.val ≠ 0 := by omega
      rw [PhiS1_pos V c _ _ hz, acc1_add V c t h0]
      iintro ⟨⟨HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact acc1_B ..
        iexact Hg
      isplitl [Ho]; · iexact Ho
      isplitl [H0]; · iexact H0
      isplitl [H1]; · iexact H1
      isplitl [H2]; · iexact H2
      iexists _; iexact H3

theorem hout1 (c : Dev nD) : (dat1 V c).Φ (Fin.last cfg1.N) ⊢ Pipeline.ΦA spec1 c := by
  rw [PhiA1_eq]; exact PhiS1_some V c (Fin.last cfg1.N).val (Nat.le_of_lt_succ (Fin.last cfg1.N).isLt)

end Cert.Kernel.Hand

end
-- ==== Proof.K.R2Runs.lean ====
import proofs.«415579_j11768210391563_2_alg».proof.Proof.Gen.Kernel.Launch
import proofs.«415579_j11768210391563_2_alg».proof.Proof.Gen.Kernel.Skeleton
import proofs.«415579_j11768210391563_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel

theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev ms2_0 (t : Fin cfg2.N) : Memref sig .tc .vmem S512x2560 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2560x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)

abbrev scM2_0 : Memref sig .tc .vmem S512x512 .f32 := Memref.whole cc2_scratch0

theorem hz2 : (![0, 0] : Fin 2 → Nat) = fun _ => 0 := funext fun a => by fin_cases a <;> rfl

def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem PhiA2_eq (c : Dev nD) :
    (Pipeline.ΦA spec2 c : sProp 𝕄) = iprop((∃ d, owns (c : Thread nD τ) scM2_0 fullShare d) ∗ rest2 (F := F) c) := by
  unfold Pipeline.ΦA rest2
  rw [Pipeline.scopedRest_split_of_list spec2 c [cc2_scratch0] (by decide) (by decide)]
  simp only [scM2_0, owns_whole, bigSepL]
  exact BI.Entails.antisymm BI.sep_assoc BI.sep_assoc'

end Cert.Kernel.Hand

end
-- ==== Proof.K.R2RunA.lean ====
import proofs.«415579_j11768210391563_2_alg».proof.Proof.K.R2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid2.Coords) (arg3 : Memref sig .tc .vmem S512x2560 .bf16) (harg3 : arg3.IsWhole) (arg4 : Memref sig .tc .vmem S2560x512 .bf16) (harg4 : arg4.IsWhole) (arg5 : Memref sig .tc .vmem S512x512 .f32) (harg5 : arg5.IsWhole) (arg6 : Memref sig .tc .vmem S512x512 .f32) (harg6 : arg6.IsWhole)

set_option maxHeartbeats 4000000 in

def kernelRun2_A (hc0 : cond2_0 i) (hc1 : ¬cond2_1 i)
    (x0 : Vec F S512x2560 .bf16) (x1 : Vec F S2560x512 .bf16) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

theorem acc2_A (hc0 : cond2_0 i) (hc1 : ¬cond2_1 i) (x0 : Vec F S512x2560 .bf16) (x1 : Vec F S2560x512 .bf16) (f) :
    arg6.view.read (Elt F) (arg6.view.writes (Elt F) f (kernelRun2_A c i arg3 harg3 arg4 harg4 arg5 harg5 arg6 harg6 hc0 hc1 x0 x1).2.1) = k2_pay2 k2_pay1 x0 x1 := by
  refine (View.read_writes_eq_canon _ _ _ (View.cover_of_tiledL _ S512x512.size ?_)).trans ?_
  · sl_kernel_rfl
  unfold kernelRun2_A
  dsimp only
  sl_unfold_words
  rw [View.canon_cons_unit_zero (S := S512x512) hz2, View.readCov_unit_zero (S := S512x512) _ hz2]
  simp only [View.readAt_eq_ld, harg3.read_unread, harg4.read_unread, View.ld_unit_zero hz2 _ x0, View.ld_unit_zero hz2 _ x1]

end Cert.Kernel.Hand

end
-- ==== Proof.K.R2RunB.lean ====
import proofs.«415579_j11768210391563_2_alg».proof.Proof.K.R2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid2.Coords) (arg3 : Memref sig .tc .vmem S512x2560 .bf16) (harg3 : arg3.IsWhole) (arg4 : Memref sig .tc .vmem S2560x512 .bf16) (harg4 : arg4.IsWhole) (arg5 : Memref sig .tc .vmem S512x512 .f32) (harg5 : arg5.IsWhole) (arg6 : Memref sig .tc .vmem S512x512 .f32) (harg6 : arg6.IsWhole)

set_option maxHeartbeats 4000000 in

def kernelRun2_B (hc0 : ¬cond2_0 i) (hc1 : ¬cond2_1 i)
    (x0 : Vec F S512x2560 .bf16) (x1 : Vec F S2560x512 .bf16) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

theorem acc2_B (hc0 : ¬cond2_0 i) (hc1 : ¬cond2_1 i) (x0 : Vec F S512x2560 .bf16) (x1 : Vec F S2560x512 .bf16) (xs0 : Vec F S512x512 .f32) (f) :
    arg6.view.read (Elt F) (arg6.view.writes (Elt F) f (kernelRun2_B c i arg3 harg3 arg4 harg4 arg5 harg5 arg6 harg6 hc0 hc1 x0 x1 xs0).2.1) = k2_pay2 xs0 x0 x1 := by
  refine (View.read_writes_eq_canon _ _ _ (View.cover_of_tiledL _ S512x512.size ?_)).trans ?_
  · sl_kernel_rfl
  unfold kernelRun2_B
  dsimp only
  sl_unfold_words
  rw [View.canon_unit_zero hz2]
  simp only [View.readAt_eq_ld, harg3.read_unread, harg4.read_unread, harg6.read_unread, View.ld_unit_zero hz2 _ x0, View.ld_unit_zero hz2 _ x1, View.ld_unit_zero hz2 _ xs0]

end Cert.Kernel.Hand

end
-- ==== Proof.K.R2RunC.lean ====
import proofs.«415579_j11768210391563_2_alg».proof.Proof.K.R2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid2.Coords) (arg3 : Memref sig .tc .vmem S512x2560 .bf16) (harg3 : arg3.IsWhole) (arg4 : Memref sig .tc .vmem S2560x512 .bf16) (harg4 : arg4.IsWhole) (arg5 : Memref sig .tc .vmem S512x512 .f32) (harg5 : arg5.IsWhole) (arg6 : Memref sig .tc .vmem S512x512 .f32) (harg6 : arg6.IsWhole)

set_option maxHeartbeats 4000000 in

def kernelRun2_C (hc0 : ¬cond2_0 i) (hc1 : cond2_1 i)
    (x0 : Vec F S512x2560 .bf16) (x1 : Vec F S2560x512 .bf16) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

theorem acc2_C (hc0 : ¬cond2_0 i) (hc1 : cond2_1 i) (x0 : Vec F S512x2560 .bf16) (x1 : Vec F S2560x512 .bf16) (xs0 : Vec F S512x512 .f32) (f) :
    arg6.view.read (Elt F) (arg6.view.writes (Elt F) f (kernelRun2_C c i arg3 harg3 arg4 harg4 arg5 harg5 arg6 harg6 hc0 hc1 x0 x1 xs0).2.1) = k2_pay2 xs0 x0 x1 := by
  refine (View.read_writes_eq_canon _ _ _ (View.cover_of_tiledL _ S512x512.size ?_)).trans ?_
  · sl_kernel_rfl
  unfold kernelRun2_C
  dsimp only
  sl_unfold_words
  rw [View.canon_unit_zero hz2]
  simp only [View.readAt_eq_ld, harg3.read_unread, harg4.read_unread, harg6.read_unread, View.ld_unit_zero hz2 _ x0, View.ld_unit_zero hz2 _ x1, View.ld_unit_zero hz2 _ xs0]

theorem out2_C (hc0 : ¬cond2_0 i) (hc1 : cond2_1 i) (x0 : Vec F S512x2560 .bf16) (x1 : Vec F S2560x512 .bf16) (xs0 : Vec F S512x512 .f32) (f) :
    arg5.view.read (Elt F) (arg5.view.writes (Elt F) f (kernelRun2_C c i arg3 harg3 arg4 harg4 arg5 harg5 arg6 harg6 hc0 hc1 x0 x1 xs0).1) = k2_pay2 xs0 x0 x1 := by
  refine (View.read_writes_eq_canon _ _ _ (View.cover_of_tiledL _ S512x512.size ?_)).trans ?_
  · sl_kernel_rfl
  unfold kernelRun2_C
  dsimp only
  sl_unfold_words
  rw [View.canon_unit_zero hz2, View.readCov_unit_zero (S := S512x512) _ hz2]
  simp only [View.readAt_eq_ld, harg3.read_unread, harg4.read_unread, harg6.read_unread, View.ld_unit_zero hz2 _ x0, View.ld_unit_zero hz2 _ x1, View.ld_unit_zero hz2 _ xs0]

end Cert.Kernel.Hand

end
-- ==== Proof.K.R2Body.lean ====
import proofs.«415579_j11768210391563_2_alg».proof.Proof.K.R2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc2 (c : Dev nD) : (n : ℕ) → n < cfg2.N → Vec F S512x512 .f32
  | 0, hn => k2_pay2 k2_pay1 (iblk2 V c 0 ⟨0, hn⟩) (iblk2 V c 1 ⟨0, hn⟩)
  | n + 1, hn => k2_pay2 (if (n + 1) % 8 = 0 then k2_pay1 else acc2 c n (Nat.lt_of_succ_lt hn)) (iblk2 V c 0 ⟨n + 1, hn⟩) (iblk2 V c 1 ⟨n + 1, hn⟩)

theorem acc2_reset (c : Dev nD) (t : Fin cfg2.N) (h0 : t.val % 8 = 0) :
    acc2 V c t.val t.isLt = k2_pay2 k2_pay1 (iblk2 V c 0 t) (iblk2 V c 1 t) := by
  obtain ⟨_ | n, hn⟩ := t
  · rfl
  · exact congrArg (k2_pay2 · _ _) (if_pos h0)

theorem acc2_add (c : Dev nD) (t : Fin cfg2.N) (h0 : ¬t.val % 8 = 0) :
    acc2 V c t.val t.isLt = k2_pay2 (acc2 V c (t.val - 1) (Nat.lt_of_le_of_lt (Nat.sub_le _ _) t.isLt)) (iblk2 V c 0 t) (iblk2 V c 1 t) := by
  obtain ⟨_ | n, hn⟩ := t
  · exact absurd (Nat.zero_mod _) h0
  · exact congrArg (k2_pay2 · _ _) (if_neg h0)

def PhiS2 (c : Dev nD) : (n : ℕ) → n ≤ cfg2.N → sProp 𝕄
  | 0, _ => Pipeline.ΦA spec2 c
  | n + 1, hn => iprop(owns (c : Thread nD τ) scM2_0 fullShare (acc2 V c n hn) ∗ rest2 (F := F) c)

theorem PhiS2_pos (c : Dev nD) (n : ℕ) (h : n ≤ cfg2.N) (hz : n ≠ 0) :
    PhiS2 V c n h = iprop(owns (c : Thread nD τ) scM2_0 fullShare (acc2 V c (n - 1) (by omega)) ∗ rest2 (F := F) c) := by
  cases n with
  | zero => exact absurd rfl hz
  | succ n => rfl

theorem PhiS2_some (c : Dev nD) (n : ℕ) (h : n ≤ cfg2.N) :
    PhiS2 V c n h ⊢ iprop((∃ d, owns (c : Thread nD τ) scM2_0 fullShare d) ∗ rest2 (F := F) c) := by
  cases n with
  | zero => show (Pipeline.ΦA spec2 c : sProp 𝕄) ⊢ _; rw [PhiA2_eq]
  | succ n =>
    show iprop(owns (c : Thread nD τ) scM2_0 fullShare (acc2 V c n h) ∗ rest2 (F := F) c) ⊢ _
    iintro ⟨HS0, Hg⟩
    isplitl [HS0]; · iexists _; iexact HS0
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = acc2 V c t.val t.isLt := rfl

set_option maxHeartbeats 4800000 in

theorem body_obligation2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop(PhiS2 V c (t.val + 1) t.isLt ∗ (dat2 V c).owesAt () t.castSucc
        ∗ (dat2 V c).leavesExact 0 t ∗ (dat2 V c).leavesExact 1 t ∗ (dat2 V c).leavesExact 2 t))
  unfold bodyAt2
  simp only [before2_0_of V (dat2 V c) rfl (fun _ => rfl), before2_1_of V (dat2 V c) rfl (fun _ => rfl)]
  rw [show (dat2 V c).Φ t.castSucc = PhiS2 V c t.val (Nat.le_of_lt t.isLt) from rfl,
    show PhiS2 V c (t.val + 1) t.isLt = iprop(owns (c : Thread nD τ) scM2_0 fullShare (acc2 V c t.val t.isLt) ∗ rest2 (F := F) c) from rfl,
    show (dat2 V c).leavesExact 0 t = owns (c : Thread nD τ) (ms2_0 t) fullShare (iblk2 V c 0 t) from by
      unfold Dat.leavesExact; rw [liveAt2_0 t]; try rfl,
    show (dat2 V c).leavesExact 1 t = owns (c : Thread nD τ) (ms2_1 t) fullShare (iblk2 V c 1 t) from by
      unfold Dat.leavesExact; rw [liveAt2_1 t]; try rfl]
  by_cases h1 : t.val % 8 = 7
  · have h0 : ¬t.val % 8 = 0 := by omega
    have hz : t.val ≠ 0 := by omega
    rw [show (dat2 V c).leavesExact 2 t = owns (c : Thread nD τ) (ms2_2 t) fullShare (acc2 V c t.val t.isLt) from by
      unfold Dat.leavesExact; rw [liveAt2_2 t ((hcond2_1 t).mpr h1)]; try rfl,
      PhiS2_pos V c _ _ hz, acc2_add V c t h0]
    iintro ⟨⟨HS0, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact acc2_C ..
      iexact Hg
    isplitl [Ho]; · iexact Ho
    isplitl [H0]; · iexact H0
    isplitl [H1]; · iexact H1
    unfold owns; iexists _; isplitr
    swap; · iexact H2
    ipureintro; exact out2_C ..
  · rw [Dat.leavesExact_idle (dat2 V c) 2 t (idleAt2_2 t (fun h => h1 ((hcond2_1 t).mp h))) (noFlush2_2 t (fun h => h1 ((hcond2_1 t).mp h)))]
    by_cases h0 : t.val % 8 = 0
    · rw [acc2_reset V c t h0]
      iintro ⟨HΦ, Ho, ⟨%d0, H0⟩, ⟨%d1, H1⟩, ⟨%d2, H2⟩⟩
      ihave H := PhiS2_some V c _ _ $$ HΦ
      icases H with ⟨HS0, Hg⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc2_A ..
        iexact Hg
      isplitl [Ho]; · iexact Ho
      isplitl [H0]; · iexact H0
      isplitl [H1]; · iexact H1
      iexists _; iexact H2
    · have hz : t.val ≠ 0 := by omega
      rw [PhiS2_pos V c _ _ hz, acc2_add V c t h0]
      iintro ⟨⟨HS0, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc2_B ..
        iexact Hg
      isplitl [Ho]; · iexact Ho
      isplitl [H0]; · iexact H0
      isplitl [H1]; · iexact H1
      iexists _; iexact H2

theorem hout2 (c : Dev nD) : (dat2 V c).Φ (Fin.last cfg2.N) ⊢ Pipeline.ΦA spec2 c := by
  rw [PhiA2_eq]; exact PhiS2_some V c (Fin.last cfg2.N).val (Nat.le_of_lt_succ (Fin.last cfg2.N).isLt)

end Cert.Kernel.Hand

end
-- ==== Proof.K.Segs.lean ====
import proofs.«415579_j11768210391563_2_alg».proof.Proof.K.R0Body
import proofs.«415579_j11768210391563_2_alg».proof.Proof.K.R1Body
import proofs.«415579_j11768210391563_2_alg».proof.Proof.K.R2Body
import proofs.«415579_j11768210391563_2_alg».proof.Proof.Gen.Kernel.Regions
import proofs.«415579_j11768210391563_2_alg».proof.Proof.Gen.Pre_finite_inputs
import proofs.«415579_j11768210391563_2_alg».proof.Defs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def X2 (c : Dev nD) : Valuation τ sig (Elt F) :=
  Pipeline.withArrays spec0 c (Gen.V1 m c) fun w => (dat0 (atRefs (Gen.V1 m)) c).arrAt w cfg0.N

def outsA : Gen.Outs (F := F) := fun _ r c => X2 m c r

def X4 (c : Dev nD) : Valuation τ sig (Elt F) :=
  Pipeline.withArrays spec1 c (Gen.V3 m (outsA m) c) fun w => (dat1 (atRefs (Gen.V3 m (outsA m))) c).arrAt w cfg1.N

def outsB : Gen.Outs (F := F) := fun j r c => match j with
  | 2 => X2 m c r
  | _ => X4 m c r

def X18 (c : Dev nD) : Valuation τ sig (Elt F) :=
  Pipeline.withArrays spec2 c (Gen.V17 m (outsB m) c) fun w => (dat2 (atRefs (Gen.V17 m (outsB m))) c).arrAt w cfg2.N

def outs : Gen.Outs (F := F) := fun j r c => match j with
  | 2 => X2 m c r
  | 4 => X4 m c r
  | _ => X18 m c r

def pdats : (p : Fin 3) → (c : Dev nD) → Dat τ (Elt F) Unit ℕ (UR sig nD τ) ℕ (Pipeline.pin (pcfgs (F := F)) adm p) c
  | ⟨0, _⟩ => fun c => dat0 (atRefs (Gen.V1 m)) c
  | ⟨1, _⟩ => fun c => dat1 (atRefs (Gen.V3 m (outsA m))) c
  | ⟨2, _⟩ => fun c => dat2 (atRefs (Gen.V17 m (outsB m))) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

variable {p : Fin 3} (V : Dev nD → Valuation τ sig (Elt F)) (wo : Fin (cfgs p).W)

def upd (c : Dev nD) : Valuation τ sig (Elt F) :=
  Function.update (V c) (Pipeline.arrRef (cfgs p).spec wo)
    (Pipeline.withArrays (cfgs p).spec c (V c) (fun w => (pdats m p c).arrAt w (cfgs p).N) (Pipeline.arrRef (cfgs p).spec wo))

theorem hF (lf : Pipeline.LaunchFacts (nD := nD) (τ := τ) cfgs p) (hin : ∀ w, w ≠ wo → ((cfgs p).win w).isOut = false) (c : Dev nD)
    (hA : ∀ w, (pdats m p c).A w = atRefs V c (Pipeline.arrRef (cfgs p).spec w)) (w : Fin (cfgs p).W) :
    (pdats m p c).arrAt w (cfgs p).N = atRefs (upd m V wo) c (Pipeline.arrRef (cfgs p).spec w) := by
  show _ = Function.update (V c) _ _ _
  by_cases h : w = wo
  · subst h; rw [Function.update_self]
    exact (Pipeline.withArrays_arr _ lf.win.arr_inj c (V c) (fun w => (pdats m p c).arrAt w (cfgs p).N) w).symm
  · rw [Function.update_of_ne (StableHlo.devRef_ne_of_ne fun e => h (lf.win.arr_inj e))]
    exact ((pdats m p c).arrAt_in w (hin w h) _).trans (hA w)

theorem hrest (c : Dev nD) (b : Ref sig .tc) (hb : b ∉ Finset.univ.image (Pipeline.arrRef (cfgs p).spec)) :
    atRefs (upd m V wo) c b = atRefs V c b :=
  Function.update_of_ne (StableHlo.devRef_ne_of_ne fun e => hb (Finset.mem_image.mpr ⟨wo, Finset.mem_univ _, e.symm⟩)) _ _

variable (lf : Pipeline.LaunchFacts (nD := nD) (τ := τ) cfgs p) (hin : ∀ w, w ≠ wo → ((cfgs p).win w).isOut = false)
  (hb : ∀ c, BodyObligation (pdats m p c) (defs₀ (F := F)) Variants.none () Set.univ)
  (hq : ∀ c w, (pdats m p c).q w = fullShare) (howed : ∀ c t, (pdats m p c).owed t = 0)
  (hrec : ∀ c t, (pdats m p c).recorded t = Set.univ)
  (hA : ∀ c w, (pdats m p c).A w = atRefs V c (Pipeline.arrRef (cfgs p).spec w))
  (hΦ : ∀ c, (pdats m p c).Φ 0 = Pipeline.ΦA (cfgs p).spec c)
  (ho : ∀ c, (pdats m p c).Φ (Fin.last (cfgs p).N) ⊢ Pipeline.ΦA (cfgs p).spec c)

set_option backward.isDefEq.respectTransparency.types false in

def reg : Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (upd m V wo c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    rw [Pipeline.ownSems0_none]
    have hsplit := Pipeline.arrays_of_unscopedBufs (p := p) (pcfgs (F := F)) adm (pdats m) lf.win lf.arr_whole c
      ((pdats m p c).share_full (hq c)) (atRefs V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl ((hrec c 0).symm ▸ trivial)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none]
    refine BI.Entails.trans (ho c) ?_
    show (Pipeline.ΦA (cfgs p).spec c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atRefs V c) (atRefs (upd m V wo) c) ((pdats m p c).arrAt · (cfgs p).N) (hF m V wo lf hin c (hA c)) (hrest m V wo c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := reg m (p := 0) (Gen.V1 m) 2 launch0 (by decide) (fun c => body_obligation0 _ c) (fun _ _ => rfl) (fun _ _ => rfl) (fun _ _ => rfl) (fun _ _ => rfl)
  (fun _ => rfl) (fun c => hout0 _ c)
def reg1 := reg m (p := 1) (Gen.V3 m (outs m)) 3 launch1 (by decide) (fun c => body_obligation1 _ c) (fun _ _ => rfl) (fun _ _ => rfl) (fun _ _ => rfl) (fun _ _ => rfl)
  (fun _ => rfl) (fun c => hout1 _ c)
def reg2 := reg m (p := 2) (Gen.V17 m (outs m)) 2 launch2 (by decide) (fun c => body_obligation2 _ c) (fun _ _ => rfl) (fun _ _ => rfl) (fun _ _ => rfl) (fun _ _ => rfl)
  (fun _ => rfl) (fun c => hout2 _ c)

abbrev u₀ : UR sig nD τ := initOf (Pipeline.cells cfgs cellOf_inj) (Pipeline.launchToks cfgs cellOf_inj)

theorem hu₀ : (ownU (u₀) : sProp 𝕄) ⊢ |={Set.univ}=> iprop(BI.own (emb₁ u₀) ∗ bigSep Finset.univ fun _ : Dev nD => iprop(emp)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts L lv)
      ⊢ (|={Set.univ}=> bigSep Finset.univ R : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R c ⊢ (iprop(∃ W, owes (c : Thread nD τ) (0 : CellTallies nD τ sig Unit) W) : sProp 𝕄) := by
  iintro ⟨-, HO⟩; iexact HO

set_option backward.isDefEq.respectTransparency.types false in
theorem frame : Cert.frame_Kernel := fun m ρ _ =>
  Gen.frame_cond m emb₁ () 𝒱₀ L lv (fun _ _ => rfl) ρ (outs m) (pdats m) (O₀ := 0) (G := fun _ => iprop(emp)) (u₀ := u₀) hu₀
    (E := fun _ c => R c) (hE0 ρ) hE3
    (reg0 m) (fun c => .rfl) (fun c => .rfl) (reg1 m) (fun c => .rfl) (fun c => .rfl) (reg2 m) (fun c => .rfl) (fun c => .rfl)

theorem outs_2 (c : Dev nD) : outs m 2 main_v18 c = (dat0 (atRefs (Gen.V1 m)) c).arrAt 2 cfg0.N :=
  show X2 m c main_v18 = _ from Pipeline.withArrays_arr spec0 launch0.win.arr_inj c (Gen.V1 m c) _ 2
theorem outs_4 (c : Dev nD) : outs m 4 main_v20 c = (dat1 (atRefs (Gen.V3 m (outs m))) c).arrAt 3 cfg1.N :=
  show X4 m c main_v20 = _ from Pipeline.withArrays_arr spec1 launch1.win.arr_inj c (Gen.V3 m (outsA m) c) _ 3
theorem outs_18 (c : Dev nD) : outs m 18 main_v84 c = (dat2 (atRefs (Gen.V17 m (outs m))) c).arrAt 2 cfg2.N :=
  show X18 m c main_v84 = _ from Pipeline.withArrays_arr spec2 launch2.win.arr_inj c (Gen.V17 m (outsB m) c) _ 2

end Cert.Kernel.Hand

end
-- ==== Proof.KI.R0Runs.lean ====
import proofs.«415579_j11768210391563_2_alg».proof.Proof.Gen.KernelIdeal.Launch
import proofs.«415579_j11768210391563_2_alg».proof.Proof.Gen.KernelIdeal.Skeleton
import proofs.«415579_j11768210391563_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

abbrev scM0_0 : Memref sig .tc .vmem S1024x1024 .f32 := Memref.whole cc0_scratch0

theorem hz0 : (![0, 0] : Fin 2 → Nat) = fun _ => 0 := funext fun a => by fin_cases a <;> rfl

/-- What the body never touches. -/
def rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The resting invariant is the accumulator at some contents beside that rest. -/
theorem PhiA0_eq (c : Dev nD) :
    (Pipeline.ΦA spec0 c : sProp 𝕄) = iprop((∃ d, owns (c : Thread nD τ) scM0_0 fullShare d) ∗ rest0 (F := F) c) := by
  unfold Pipeline.ΦA rest0
  rw [Pipeline.scopedRest_split_of_list spec0 c [cc0_scratch0] (by decide) (by decide)]
  simp only [scM0_0, owns_whole, bigSepL]
  exact BI.Entails.antisymm BI.sep_assoc BI.sep_assoc'

end Cert.KernelIdeal.Hand

end
-- ==== Proof.KI.R0RunA.lean ====
import proofs.«415579_j11768210391563_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)

set_option maxHeartbeats 4000000 in
/-- One run of the body at a first contraction block: the input blocks are handed back as read, and the accumulator ends with the listed pieces written over whatever it held. -/
def kernelRun0_A (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Whatever the accumulator held before, those pieces read back as the block product added onto the zero block. -/
theorem acc0_A (hc0 : cond0_0 i) (hc1 : ¬cond0_1 i) (x0 : Vec F S1024x1024 .bf16) (x1 : Vec F S1024x1024 .bf16) (f) :
    arg6.view.read (Elt F) (arg6.view.writes (Elt F) f (kernelRun0_A c i arg3 harg3 arg4 harg4 arg5 harg5 arg6 harg6 hc0 hc1 x0 x1).2.1) = k0_pay2 k0_pay1 x0 x1 := by
  refine (View.read_writes_eq_canon _ _ _ (View.cover_of_tiledL _ S1024x1024.size ?_)).trans ?_
  · sl_kernel_rfl
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, View.ld_unit_zero hz0 _ x0, View.ld_unit_zero hz0 _ x1]

end Cert.KernelIdeal.Hand

end
-- ==== Proof.KI.R0RunB.lean ====
import proofs.«415579_j11768210391563_2_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)

set_option maxHeartbeats 4000000 in
/-- One run of the body at a middle contraction block: the accumulator, held at `xs0`, ends with the listed pieces written. -/
def kernelRun0_B (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Those pieces read back as the block product added onto what the accumulator held. -/
theorem acc0_B (hc0 : ¬cond0_0 i) (hc1 : ¬cond0_1 i) (x0 : Vec F S1024x1024 .bf16) (x1 : Vec F S1024x1024 .bf16) (xs0 : Vec F S1024x1024 .f32) (f) :
    arg6.view.read (Elt F) (arg6.view.writes (Elt F) f (kernelRun0_B c i arg3 harg3 arg4 harg4 arg5 harg5 arg6 harg6 hc0 hc1 x0 x1 xs0).2.1) = k0_pay2 xs0 x0 x1 := by
  refine (View.read_writes_eq_canon _ _ _ (View.cover_of_tiledL _ S1024x1024.size ?_)).trans ?_
  · sl_kernel_rfl
  unfold kernelRun0_B
  dsimp only
  sl_unfold_words
  rw [View.canon_unit_zero hz0]
  simp only [View.readAt_eq_ld, harg3.read_unread, harg4.read_unread, harg6.read_unread, View.ld_unit_zero hz0 _ x0, View.ld_unit_zero hz0 _ x1, View.ld_unit_zero hz0 _ xs0]

end Cert.KernelIdeal.Hand

end
-- ==== Proof.KI.R0RunC.lean ====
import proofs.«415579_j11768210391563_2_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)

set_option maxHeartbeats 4000000 in
/-- One run of the body at a last contraction block: as at a middle one, and the output block ends with its own pieces written. -/
def kernelRun0_C (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- Those pieces read back as the block product added onto what the accumulator held. -/
theorem acc0_C (hc0 : ¬cond0_0 i) (hc1 : cond0_1 i) (x0 : Vec F S1024x1024 .bf16) (x1 : Vec F S1024x1024 .bf16) (xs0 : Vec F S1024x1024 .f32) (f) :
    arg6.view.read (Elt F) (arg6.view.writes (Elt F) f (kernelRun0_C c i arg3 harg3 arg4 harg4 arg5 harg5 arg6 harg6 hc0 hc1 x0 x1 xs0).2.1) = k0_pay2 xs0 x0 x1 := by
  refine (View.read_writes_eq_canon _ _ _ (View.cover_of_tiledL _ S1024x1024.size ?_)).trans ?_
  · sl_kernel_rfl
  unfold kernelRun0_C
  dsimp only
  sl_unfold_words
  rw [View.canon_unit_zero hz0]
  simp only [View.readAt_eq_ld, harg3.read_unread, harg4.read_unread, harg6.read_unread, View.ld_unit_zero hz0 _ x0, View.ld_unit_zero hz0 _ x1, View.ld_unit_zero hz0 _ xs0]

/-- The output block's pieces read back as the accumulator's new contents. -/
theorem out0_C (hc0 : ¬cond0_0 i) (hc1 : cond0_1 i) (x0 : Vec F S1024x1024 .bf16) (x1 : Vec F S1024x1024 .bf16) (xs0 : Vec F S1024x1024 .f32) (f) :
    arg5.view.read (Elt F) (arg5.view.writes (Elt F) f (kernelRun0_C c i arg3 harg3 arg4 harg4 arg5 harg5 arg6 harg6 hc0 hc1 x0 x1 xs0).1) = k0_pay2 xs0 x0 x1 := by
  refine (View.read_writes_eq_canon _ _ _ (View.cover_of_tiledL _ S1024x1024.size ?_)).trans ?_
  · sl_kernel_rfl
  unfold kernelRun0_C
  dsimp only
  sl_unfold_words
  rw [View.canon_unit_zero hz0, View.readCov_unit_zero (S := S1024x1024) _ hz0]
  simp only [View.readAt_eq_ld, harg3.read_unread, harg4.read_unread, harg6.read_unread, View.ld_unit_zero hz0 _ x0, View.ld_unit_zero hz0 _ x1, View.ld_unit_zero hz0 _ xs0]

end Cert.KernelIdeal.Hand

end
-- ==== Proof.KI.R0Body.lean ====
import proofs.«415579_j11768210391563_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the point at linear index `n`: that point's block product added onto the zero block at a
    first contraction block, onto what the point before left at any other. -/
def acc0 (c : Dev nD) : (n : ℕ) → n < cfg0.N → Vec F S1024x1024 .f32
  | 0, hn => k0_pay2 k0_pay1 (iblk0 V c 0 ⟨0, hn⟩) (iblk0 V c 1 ⟨0, hn⟩)
  | n + 1, hn => k0_pay2 (if (n + 1) % 8 = 0 then k0_pay1 else acc0 c n (Nat.lt_of_succ_lt hn)) (iblk0 V c 0 ⟨n + 1, hn⟩) (iblk0 V c 1 ⟨n + 1, hn⟩)

theorem acc0_reset (c : Dev nD) (t : Fin cfg0.N) (h0 : t.val % 8 = 0) :
    acc0 V c t.val t.isLt = k0_pay2 k0_pay1 (iblk0 V c 0 t) (iblk0 V c 1 t) := by
  obtain ⟨_ | n, hn⟩ := t
  · rfl
  · exact congrArg (k0_pay2 · _ _) (if_pos h0)

theorem acc0_add (c : Dev nD) (t : Fin cfg0.N) (h0 : ¬t.val % 8 = 0) :
    acc0 V c t.val t.isLt = k0_pay2 (acc0 V c (t.val - 1) (Nat.lt_of_le_of_lt (Nat.sub_le _ _) t.isLt)) (iblk0 V c 0 t) (iblk0 V c 1 t) := by
  obtain ⟨_ | n, hn⟩ := t
  · exact absurd (Nat.zero_mod _) h0
  · exact congrArg (k0_pay2 · _ _) (if_neg h0)

/-- Between points: the resting invariant before the first point, afterwards the accumulator at what the point before
    left, beside the untouched rest. -/
def PhiS0 (c : Dev nD) : (n : ℕ) → n ≤ cfg0.N → sProp 𝕄
  | 0, _ => Pipeline.ΦA spec0 c
  | n + 1, hn => iprop(owns (c : Thread nD τ) scM0_0 fullShare (acc0 V c n hn) ∗ rest0 (F := F) c)

theorem PhiS0_pos (c : Dev nD) (n : ℕ) (h : n ≤ cfg0.N) (hz : n ≠ 0) :
    PhiS0 V c n h = iprop(owns (c : Thread nD τ) scM0_0 fullShare (acc0 V c (n - 1) (by omega)) ∗ rest0 (F := F) c) := by
  cases n with
  | zero => exact absurd rfl hz
  | succ n => rfl

/-- At every position the invariant gives the accumulator at some contents beside the rest. -/
theorem PhiS0_some (c : Dev nD) (n : ℕ) (h : n ≤ cfg0.N) :
    PhiS0 V c n h ⊢ iprop((∃ d, owns (c : Thread nD τ) scM0_0 fullShare d) ∗ rest0 (F := F) c) := by
  cases n with
  | zero => show (Pipeline.ΦA spec0 c : sProp 𝕄) ⊢ _; rw [PhiA0_eq]
  | succ n =>
    show iprop(owns (c : Thread nD τ) scM0_0 fullShare (acc0 V c n h) ∗ rest0 (F := F) c) ⊢ _
    iintro ⟨HS0, Hg⟩
    isplitl [HS0]; · iexists _; iexact HS0
    iexact Hg

/-- The region's proof data: each input's buffer at its block, the output's at the accumulator's contents, the invariant above, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = acc0 V c t.val t.isLt := rfl

set_option maxHeartbeats 4800000 in
/-- The body at any point. The closed forms of the two conditions say which run applies; the invariant hands the body
    the accumulator (at anything, at a first contraction block) and takes it back at this point's contents. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop(PhiS0 V c (t.val + 1) t.isLt ∗ (dat0 V c).owesAt () t.castSucc
        ∗ (dat0 V c).leavesExact 0 t ∗ (dat0 V c).leavesExact 1 t ∗ (dat0 V c).leavesExact 2 t))
  unfold bodyAt0
  simp only [before0_0_of V (dat0 V c) rfl (fun _ => rfl), before0_1_of V (dat0 V c) rfl (fun _ => rfl)]
  rw [show (dat0 V c).Φ t.castSucc = PhiS0 V c t.val (Nat.le_of_lt t.isLt) from rfl,
    show PhiS0 V c (t.val + 1) t.isLt = iprop(owns (c : Thread nD τ) scM0_0 fullShare (acc0 V c t.val t.isLt) ∗ rest0 (F := F) c) from rfl,
    show (dat0 V c).leavesExact 0 t = owns (c : Thread nD τ) (ms0_0 t) fullShare (iblk0 V c 0 t) from by
      unfold Dat.leavesExact; rw [liveAt0_0 t]; try rfl,
    show (dat0 V c).leavesExact 1 t = owns (c : Thread nD τ) (ms0_1 t) fullShare (iblk0 V c 1 t) from by
      unfold Dat.leavesExact; rw [liveAt0_1 t]; try rfl]
  by_cases h1 : t.val % 8 = 7
  · have h0 : ¬t.val % 8 = 0 := by omega
    have hz : t.val ≠ 0 := by omega
    rw [show (dat0 V c).leavesExact 2 t = owns (c : Thread nD τ) (ms0_2 t) fullShare (acc0 V c t.val t.isLt) from by
      unfold Dat.leavesExact; rw [liveAt0_2 t ((hcond0_1 t).mpr h1)]; try rfl,
      PhiS0_pos V c _ _ hz, acc0_add V c t h0]
    iintro ⟨⟨HS0, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact acc0_C ..
      iexact Hg
    isplitl [Ho]; · iexact Ho
    isplitl [H0]; · iexact H0
    isplitl [H1]; · iexact H1
    unfold owns; iexists _; isplitr
    swap; · iexact H2
    ipureintro; exact out0_C ..
  · rw [Dat.leavesExact_idle (dat0 V c) 2 t (idleAt0_2 t (fun h => h1 ((hcond0_1 t).mp h))) (noFlush0_2 t (fun h => h1 ((hcond0_1 t).mp h)))]
    by_cases h0 : t.val % 8 = 0
    · rw [acc0_reset V c t h0]
      iintro ⟨HΦ, Ho, ⟨%d0, H0⟩, ⟨%d1, H1⟩, ⟨%d2, H2⟩⟩
      ihave H := PhiS0_some V c _ _ $$ HΦ
      icases H with ⟨HS0, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc0_A ..
        iexact Hg
      isplitl [Ho]; · iexact Ho
      isplitl [H0]; · iexact H0
      isplitl [H1]; · iexact H1
      iexists _; iexact H2
    · have hz : t.val ≠ 0 := by omega
      rw [PhiS0_pos V c _ _ hz, acc0_add V c t h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc0_B ..
        iexact Hg
      isplitl [Ho]; · iexact Ho
      isplitl [H0]; · iexact H0
      isplitl [H1]; · iexact H1
      iexists _; iexact H2

/-- After the last point the invariant gives the resting one back: the accumulator's contents are forgotten. -/
theorem hout0 (c : Dev nD) : (dat0 V c).Φ (Fin.last cfg0.N) ⊢ Pipeline.ΦA spec0 c := by
  rw [PhiA0_eq]; exact PhiS0_some V c (Fin.last cfg0.N).val (Nat.le_of_lt_succ (Fin.last cfg0.N).isLt)

end Cert.KernelIdeal.Hand

end
-- ==== Proof.KI.R1Runs.lean ====
import proofs.«415579_j11768210391563_2_alg».proof.Proof.Gen.KernelIdeal.Launch
import proofs.«415579_j11768210391563_2_alg».proof.Proof.Gen.KernelIdeal.Skeleton
import proofs.«415579_j11768210391563_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev scM1_0 : Memref sig .tc .vmem S1024x1024 .f32 := Memref.whole cc1_scratch0

theorem hz1 : (![0, 0] : Fin 2 → Nat) = fun _ => 0 := funext fun a => by fin_cases a <;> rfl

/-- What the body never touches. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The resting invariant is the accumulator at some contents beside that rest. -/
theorem PhiA1_eq (c : Dev nD) :
    (Pipeline.ΦA spec1 c : sProp 𝕄) = iprop((∃ d, owns (c : Thread nD τ) scM1_0 fullShare d) ∗ rest1 (F := F) c) := by
  unfold Pipeline.ΦA rest1
  rw [Pipeline.scopedRest_split_of_list spec1 c [cc1_scratch0] (by decide) (by decide)]
  simp only [scM1_0, owns_whole, bigSepL]
  exact BI.Entails.antisymm BI.sep_assoc BI.sep_assoc'

end Cert.KernelIdeal.Hand

end
-- ==== Proof.KI.R1RunA.lean ====
import proofs.«415579_j11768210391563_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

set_option maxHeartbeats 4000000 in
/-- One run of the body at a first contraction block: the input blocks are handed back as read, and the accumulator ends with the listed pieces written over whatever it held. -/
def kernelRun1_A (hc0 : cond1_0 i) (hc1 : ¬cond1_1 i)
    (x0 : Vec F S1024x1024 .bf16) (x1 : Vec F S1024x1024 .bf16) (x2 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__spmm2_fused_kernel i arg3 harg3 arg4 harg4 arg5 harg5 arg6 harg6 arg7 harg7) K } := by
  refine ⟨[], ?_, fun xi3 E K => ?run⟩
  case run =>
    simp only [cc1__spmm2_fused_kernel_eq_skeleton]; unfold cc1__spmm2_fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Whatever the accumulator held before, those pieces read back as the block product added onto the zero block. -/
theorem acc1_A (hc0 : cond1_0 i) (hc1 : ¬cond1_1 i) (x0 : Vec F S1024x1024 .bf16) (x1 : Vec F S1024x1024 .bf16) (x2 : Vec F S1024x1024 .f32) (f) :
    arg7.view.read (Elt F) (arg7.view.writes (Elt F) f (kernelRun1_A c i arg3 harg3 arg4 harg4 arg5 harg5 arg6 harg6 arg7 harg7 hc0 hc1 x0 x1 x2).2.1) = k1_pay2 k1_pay1 x0 x1 := by
  refine (View.read_writes_eq_canon _ _ _ (View.cover_of_tiledL _ S1024x1024.size ?_)).trans ?_
  · sl_kernel_rfl
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, harg5.read_unread, View.ld_unit_zero (S := S1024x1024) hz1]

end Cert.KernelIdeal.Hand

end
-- ==== Proof.KI.R1RunB.lean ====
import proofs.«415579_j11768210391563_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

set_option maxHeartbeats 4000000 in
/-- One run of the body at a middle contraction block: the accumulator, held at `xs0`, ends with the listed pieces written. -/
def kernelRun1_B (hc0 : ¬cond1_0 i) (hc1 : ¬cond1_1 i)
    (x0 : Vec F S1024x1024 .bf16) (x1 : Vec F S1024x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__spmm2_fused_kernel i arg3 harg3 arg4 harg4 arg5 harg5 arg6 harg6 arg7 harg7) K } := by
  refine ⟨[], ?_, fun xi3 E K => ?run⟩
  case run =>
    simp only [cc1__spmm2_fused_kernel_eq_skeleton]; unfold cc1__spmm2_fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Those pieces read back as the block product added onto what the accumulator held. -/
theorem acc1_B (hc0 : ¬cond1_0 i) (hc1 : ¬cond1_1 i) (x0 : Vec F S1024x1024 .bf16) (x1 : Vec F S1024x1024 .bf16) (x2 : Vec F S1024x1024 .f32) (xs0 : Vec F S1024x1024 .f32) (f) :
    arg7.view.read (Elt F) (arg7.view.writes (Elt F) f (kernelRun1_B c i arg3 harg3 arg4 harg4 arg5 harg5 arg6 harg6 arg7 harg7 hc0 hc1 x0 x1 x2 xs0).2.1) = k1_pay2 xs0 x0 x1 := by
  refine (View.read_writes_eq_canon _ _ _ (View.cover_of_tiledL _ S1024x1024.size ?_)).trans ?_
  · sl_kernel_rfl
  unfold kernelRun1_B
  dsimp only
  sl_unfold_words
  rw [View.canon_unit_zero hz1]
  simp only [View.readAt_eq_ld, harg3.read_unread, harg4.read_unread, harg5.read_unread, harg7.read_unread, View.ld_unit_zero (S := S1024x1024) hz1]

end Cert.KernelIdeal.Hand

end
-- ==== Proof.KI.R1RunC.lean ====
import proofs.«415579_j11768210391563_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

set_option maxHeartbeats 4000000 in
/-- One run of the body at a last contraction block: as at a middle one, and the output block ends with its own pieces written. -/
def kernelRun1_C (hc0 : ¬cond1_0 i) (hc1 : cond1_1 i)
    (x0 : Vec F S1024x1024 .bf16) (x1 : Vec F S1024x1024 .bf16) (x2 : Vec F S1024x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__spmm2_fused_kernel i arg3 harg3 arg4 harg4 arg5 harg5 arg6 harg6 arg7 harg7) K } := by
  refine ⟨?_, ?_, fun E K => ?run⟩
  case run =>
    simp only [cc1__spmm2_fused_kernel_eq_skeleton]; unfold cc1__spmm2_fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- Those pieces read back as the block product added onto what the accumulator held. -/
theorem acc1_C (hc0 : ¬cond1_0 i) (hc1 : cond1_1 i) (x0 : Vec F S1024x1024 .bf16) (x1 : Vec F S1024x1024 .bf16) (x2 : Vec F S1024x1024 .f32) (xs0 : Vec F S1024x1024 .f32) (f) :
    arg7.view.read (Elt F) (arg7.view.writes (Elt F) f (kernelRun1_C c i arg3 harg3 arg4 harg4 arg5 harg5 arg6 harg6 arg7 harg7 hc0 hc1 x0 x1 x2 xs0).2.1) = k1_pay2 xs0 x0 x1 := by
  refine (View.read_writes_eq_canon _ _ _ (View.cover_of_tiledL _ S1024x1024.size ?_)).trans ?_
  · sl_kernel_rfl
  unfold kernelRun1_C
  dsimp only
  sl_unfold_words
  rw [View.canon_unit_zero hz1]
  simp only [View.readAt_eq_ld, harg3.read_unread, harg4.read_unread, harg5.read_unread, harg7.read_unread, View.ld_unit_zero (S := S1024x1024) hz1]

/-- The output block's pieces read back as twice the accumulator's new contents less the third input block. -/
theorem out1_C (hc0 : ¬cond1_0 i) (hc1 : cond1_1 i) (x0 : Vec F S1024x1024 .bf16) (x1 : Vec F S1024x1024 .bf16) (x2 : Vec F S1024x1024 .f32) (xs0 : Vec F S1024x1024 .f32) (f) :
    arg6.view.read (Elt F) (arg6.view.writes (Elt F) f (kernelRun1_C c i arg3 harg3 arg4 harg4 arg5 harg5 arg6 harg6 arg7 harg7 hc0 hc1 x0 x1 x2 xs0).1) = k1_pay3 (k1_pay2 xs0 x0 x1) x2 := by
  refine (View.read_writes_eq_canon _ _ _ (View.cover_of_tiledL _ S1024x1024.size ?_)).trans ?_
  · sl_kernel_rfl
  unfold kernelRun1_C
  dsimp only
  sl_unfold_words
  rw [View.canon_unit_zero hz1, View.readCov_unit_zero (S := S1024x1024) _ hz1]
  simp only [View.readAt_eq_ld, harg3.read_unread, harg4.read_unread, harg5.read_unread, harg7.read_unread, View.ld_unit_zero (S := S1024x1024) hz1]

end Cert.KernelIdeal.Hand

end
-- ==== Proof.KI.R1Body.lean ====
import proofs.«415579_j11768210391563_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the point at linear index `n`: that point's block product added onto the zero block at a
    first contraction block, onto what the point before left at any other. -/
def acc1 (c : Dev nD) : (n : ℕ) → n < cfg1.N → Vec F S1024x1024 .f32
  | 0, hn => k1_pay2 k1_pay1 (iblk1 V c 0 ⟨0, hn⟩) (iblk1 V c 1 ⟨0, hn⟩)
  | n + 1, hn => k1_pay2 (if (n + 1) % 8 = 0 then k1_pay1 else acc1 c n (Nat.lt_of_succ_lt hn)) (iblk1 V c 0 ⟨n + 1, hn⟩) (iblk1 V c 1 ⟨n + 1, hn⟩)

theorem acc1_reset (c : Dev nD) (t : Fin cfg1.N) (h0 : t.val % 8 = 0) :
    acc1 V c t.val t.isLt = k1_pay2 k1_pay1 (iblk1 V c 0 t) (iblk1 V c 1 t) := by
  obtain ⟨_ | n, hn⟩ := t
  · rfl
  · exact congrArg (k1_pay2 · _ _) (if_pos h0)

theorem acc1_add (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) (iblk1 V c 1 t) := by
  obtain ⟨_ | n, hn⟩ := t
  · exact absurd (Nat.zero_mod _) h0
  · exact congrArg (k1_pay2 · _ _) (if_neg h0)

/-- Between points: the resting invariant before the first point, afterwards the accumulator at what the point before
    left, beside the untouched rest. -/
def PhiS1 (c : Dev nD) : (n : ℕ) → n ≤ cfg1.N → sProp 𝕄
  | 0, _ => Pipeline.ΦA spec1 c
  | n + 1, hn => iprop(owns (c : Thread nD τ) scM1_0 fullShare (acc1 V c n hn) ∗ rest1 (F := F) c)

theorem PhiS1_pos (c : Dev nD) (n : ℕ) (h : n ≤ cfg1.N) (hz : n ≠ 0) :
    PhiS1 V c n h = iprop(owns (c : Thread nD τ) scM1_0 fullShare (acc1 V c (n - 1) (by omega)) ∗ rest1 (F := F) c) := by
  cases n with
  | zero => exact absurd rfl hz
  | succ n => rfl

/-- At every position the invariant gives the accumulator at some contents beside the rest. -/
theorem PhiS1_some (c : Dev nD) (n : ℕ) (h : n ≤ cfg1.N) :
    PhiS1 V c n h ⊢ iprop((∃ d, owns (c : Thread nD τ) scM1_0 fullShare d) ∗ rest1 (F := F) c) := by
  cases n with
  | zero => show (Pipeline.ΦA spec1 c : sProp 𝕄) ⊢ _; rw [PhiA1_eq]
  | succ n =>
    show iprop(owns (c : Thread nD τ) scM1_0 fullShare (acc1 V c n h) ∗ rest1 (F := F) c) ⊢ _
    iintro ⟨HS0, Hg⟩
    isplitl [HS0]; · iexists _; iexact HS0
    iexact Hg

/-- The region's proof data: each input's buffer at its block, the output's at twice the accumulator's contents less the third input's block, the invariant above, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = k1_pay3 (acc1 V c t.val t.isLt) (iblk1 V c 2 t) := rfl

set_option maxHeartbeats 4800000 in
/-- The body at any point. The closed forms of the two conditions say which run applies; the invariant hands the body
    the accumulator (at anything, at a first contraction block) and takes it back at this point's contents. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) (fun _ =>
      iprop(PhiS1 V c (t.val + 1) t.isLt ∗ (dat1 V c).owesAt () t.castSucc
        ∗ (dat1 V c).leavesExact 0 t ∗ (dat1 V c).leavesExact 1 t ∗ (dat1 V c).leavesExact 2 t ∗ (dat1 V c).leavesExact 3 t))
  unfold bodyAt1
  simp only [before1_0_of V (dat1 V c) rfl (fun _ => rfl), before1_1_of V (dat1 V c) rfl (fun _ => rfl), before1_2_of V (dat1 V c) rfl (fun _ => rfl)]
  rw [show (dat1 V c).Φ t.castSucc = PhiS1 V c t.val (Nat.le_of_lt t.isLt) from rfl,
    show PhiS1 V c (t.val + 1) t.isLt = iprop(owns (c : Thread nD τ) scM1_0 fullShare (acc1 V c t.val t.isLt) ∗ rest1 (F := F) c) from rfl,
    show (dat1 V c).leavesExact 0 t = owns (c : Thread nD τ) (ms1_0 t) fullShare (iblk1 V c 0 t) from by
      unfold Dat.leavesExact; rw [liveAt1_0 t]; try rfl,
    show (dat1 V c).leavesExact 1 t = owns (c : Thread nD τ) (ms1_1 t) fullShare (iblk1 V c 1 t) from by
      unfold Dat.leavesExact; rw [liveAt1_1 t]; try rfl,
    show (dat1 V c).leavesExact 2 t = owns (c : Thread nD τ) (ms1_2 t) fullShare (iblk1 V c 2 t) from by
      unfold Dat.leavesExact; rw [liveAt1_2 t]; try rfl]
  by_cases h1 : t.val % 8 = 7
  · have h0 : ¬t.val % 8 = 0 := by omega
    have hz : t.val ≠ 0 := by omega
    rw [show (dat1 V c).leavesExact 3 t = owns (c : Thread nD τ) (ms1_3 t) fullShare (k1_pay3 (acc1 V c t.val t.isLt) (iblk1 V c 2 t)) from by
      unfold Dat.leavesExact; rw [liveAt1_3 t ((hcond1_1 t).mpr h1)]; try rfl,
      PhiS1_pos V c _ _ hz, acc1_add V c t h0]
    iintro ⟨⟨HS0, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact acc1_C ..
      iexact Hg
    isplitl [Ho]; · iexact Ho
    isplitl [H0]; · iexact H0
    isplitl [H1]; · iexact H1
    isplitl [H2]; · iexact H2
    unfold owns; iexists _; isplitr
    swap; · iexact H3
    ipureintro; exact out1_C ..
  · rw [Dat.leavesExact_idle (dat1 V c) 3 t (idleAt1_3 t (fun h => h1 ((hcond1_1 t).mp h))) (noFlush1_3 t (fun h => h1 ((hcond1_1 t).mp h)))]
    by_cases h0 : t.val % 8 = 0
    · rw [acc1_reset V c t h0]
      iintro ⟨HΦ, Ho, ⟨%d0, H0⟩, ⟨%d1, H1⟩, ⟨%d2, H2⟩, ⟨%d3, H3⟩⟩
      ihave H := PhiS1_some V c _ _ $$ HΦ
      icases H with ⟨HS0, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact acc1_A ..
        iexact Hg
      isplitl [Ho]; · iexact Ho
      isplitl [H0]; · iexact H0
      isplitl [H1]; · iexact H1
      isplitl [H2]; · iexact H2
      iexists _; iexact H3
    · have hz : t.val ≠ 0 := by omega
      rw [PhiS1_pos V c _ _ hz, acc1_add V c t h0]
      iintro ⟨⟨HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact acc1_B ..
        iexact Hg
      isplitl [Ho]; · iexact Ho
      isplitl [H0]; · iexact H0
      isplitl [H1]; · iexact H1
      isplitl [H2]; · iexact H2
      iexists _; iexact H3

/-- After the last point the invariant gives the resting one back: the accumulator's contents are forgotten. -/
theorem hout1 (c : Dev nD) : (dat1 V c).Φ (Fin.last cfg1.N) ⊢ Pipeline.ΦA spec1 c := by
  rw [PhiA1_eq]; exact PhiS1_some V c (Fin.last cfg1.N).val (Nat.le_of_lt_succ (Fin.last cfg1.N).isLt)

end Cert.KernelIdeal.Hand

end
-- ==== Proof.KI.R2Runs.lean ====
import proofs.«415579_j11768210391563_2_alg».proof.Proof.Gen.KernelIdeal.Launch
import proofs.«415579_j11768210391563_2_alg».proof.Proof.Gen.KernelIdeal.Skeleton
import proofs.«415579_j11768210391563_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel

theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev ms2_0 (t : Fin cfg2.N) : Memref sig .tc .vmem S512x2560 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2560x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)

abbrev scM2_0 : Memref sig .tc .vmem S512x512 .f32 := Memref.whole cc2_scratch0

theorem hz2 : (![0, 0] : Fin 2 → Nat) = fun _ => 0 := funext fun a => by fin_cases a <;> rfl

def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem PhiA2_eq (c : Dev nD) :
    (Pipeline.ΦA spec2 c : sProp 𝕄) = iprop((∃ d, owns (c : Thread nD τ) scM2_0 fullShare d) ∗ rest2 (F := F) c) := by
  unfold Pipeline.ΦA rest2
  rw [Pipeline.scopedRest_split_of_list spec2 c [cc2_scratch0] (by decide) (by decide)]
  simp only [scM2_0, owns_whole, bigSepL]
  exact BI.Entails.antisymm BI.sep_assoc BI.sep_assoc'

end Cert.KernelIdeal.Hand

end
-- ==== Proof.KI.R2RunA.lean ====
import proofs.«415579_j11768210391563_2_alg».proof.Proof.KI.R2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid2.Coords) (arg3 : Memref sig .tc .vmem S512x2560 .bf16) (harg3 : arg3.IsWhole) (arg4 : Memref sig .tc .vmem S2560x512 .bf16) (harg4 : arg4.IsWhole) (arg5 : Memref sig .tc .vmem S512x512 .f32) (harg5 : arg5.IsWhole) (arg6 : Memref sig .tc .vmem S512x512 .f32) (harg6 : arg6.IsWhole)

set_option maxHeartbeats 4000000 in

def kernelRun2_A (hc0 : cond2_0 i) (hc1 : ¬cond2_1 i)
    (x0 : Vec F S512x2560 .bf16) (x1 : Vec F S2560x512 .bf16) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

theorem acc2_A (hc0 : cond2_0 i) (hc1 : ¬cond2_1 i) (x0 : Vec F S512x2560 .bf16) (x1 : Vec F S2560x512 .bf16) (f) :
    arg6.view.read (Elt F) (arg6.view.writes (Elt F) f (kernelRun2_A c i arg3 harg3 arg4 harg4 arg5 harg5 arg6 harg6 hc0 hc1 x0 x1).2.1) = k2_pay2 k2_pay1 x0 x1 := by
  refine (View.read_writes_eq_canon _ _ _ (View.cover_of_tiledL _ S512x512.size ?_)).trans ?_
  · sl_kernel_rfl
  unfold kernelRun2_A
  dsimp only
  sl_unfold_words
  rw [View.canon_cons_unit_zero (S := S512x512) hz2, View.readCov_unit_zero (S := S512x512) _ hz2]
  simp only [View.readAt_eq_ld, harg3.read_unread, harg4.read_unread, View.ld_unit_zero hz2 _ x0, View.ld_unit_zero hz2 _ x1]

end Cert.KernelIdeal.Hand

end
-- ==== Proof.KI.R2RunB.lean ====
import proofs.«415579_j11768210391563_2_alg».proof.Proof.KI.R2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid2.Coords) (arg3 : Memref sig .tc .vmem S512x2560 .bf16) (harg3 : arg3.IsWhole) (arg4 : Memref sig .tc .vmem S2560x512 .bf16) (harg4 : arg4.IsWhole) (arg5 : Memref sig .tc .vmem S512x512 .f32) (harg5 : arg5.IsWhole) (arg6 : Memref sig .tc .vmem S512x512 .f32) (harg6 : arg6.IsWhole)

set_option maxHeartbeats 4000000 in

def kernelRun2_B (hc0 : ¬cond2_0 i) (hc1 : ¬cond2_1 i)
    (x0 : Vec F S512x2560 .bf16) (x1 : Vec F S2560x512 .bf16) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

theorem acc2_B (hc0 : ¬cond2_0 i) (hc1 : ¬cond2_1 i) (x0 : Vec F S512x2560 .bf16) (x1 : Vec F S2560x512 .bf16) (xs0 : Vec F S512x512 .f32) (f) :
    arg6.view.read (Elt F) (arg6.view.writes (Elt F) f (kernelRun2_B c i arg3 harg3 arg4 harg4 arg5 harg5 arg6 harg6 hc0 hc1 x0 x1 xs0).2.1) = k2_pay2 xs0 x0 x1 := by
  refine (View.read_writes_eq_canon _ _ _ (View.cover_of_tiledL _ S512x512.size ?_)).trans ?_
  · sl_kernel_rfl
  unfold kernelRun2_B
  dsimp only
  sl_unfold_words
  rw [View.canon_unit_zero hz2]
  simp only [View.readAt_eq_ld, harg3.read_unread, harg4.read_unread, harg6.read_unread, View.ld_unit_zero hz2 _ x0, View.ld_unit_zero hz2 _ x1, View.ld_unit_zero hz2 _ xs0]

end Cert.KernelIdeal.Hand

end
-- ==== Proof.KI.R2RunC.lean ====
import proofs.«415579_j11768210391563_2_alg».proof.Proof.KI.R2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid2.Coords) (arg3 : Memref sig .tc .vmem S512x2560 .bf16) (harg3 : arg3.IsWhole) (arg4 : Memref sig .tc .vmem S2560x512 .bf16) (harg4 : arg4.IsWhole) (arg5 : Memref sig .tc .vmem S512x512 .f32) (harg5 : arg5.IsWhole) (arg6 : Memref sig .tc .vmem S512x512 .f32) (harg6 : arg6.IsWhole)

set_option maxHeartbeats 4000000 in

def kernelRun2_C (hc0 : ¬cond2_0 i) (hc1 : cond2_1 i)
    (x0 : Vec F S512x2560 .bf16) (x1 : Vec F S2560x512 .bf16) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

theorem acc2_C (hc0 : ¬cond2_0 i) (hc1 : cond2_1 i) (x0 : Vec F S512x2560 .bf16) (x1 : Vec F S2560x512 .bf16) (xs0 : Vec F S512x512 .f32) (f) :
    arg6.view.read (Elt F) (arg6.view.writes (Elt F) f (kernelRun2_C c i arg3 harg3 arg4 harg4 arg5 harg5 arg6 harg6 hc0 hc1 x0 x1 xs0).2.1) = k2_pay2 xs0 x0 x1 := by
  refine (View.read_writes_eq_canon _ _ _ (View.cover_of_tiledL _ S512x512.size ?_)).trans ?_
  · sl_kernel_rfl
  unfold kernelRun2_C
  dsimp only
  sl_unfold_words
  rw [View.canon_unit_zero hz2]
  simp only [View.readAt_eq_ld, harg3.read_unread, harg4.read_unread, harg6.read_unread, View.ld_unit_zero hz2 _ x0, View.ld_unit_zero hz2 _ x1, View.ld_unit_zero hz2 _ xs0]

theorem out2_C (hc0 : ¬cond2_0 i) (hc1 : cond2_1 i) (x0 : Vec F S512x2560 .bf16) (x1 : Vec F S2560x512 .bf16) (xs0 : Vec F S512x512 .f32) (f) :
    arg5.view.read (Elt F) (arg5.view.writes (Elt F) f (kernelRun2_C c i arg3 harg3 arg4 harg4 arg5 harg5 arg6 harg6 hc0 hc1 x0 x1 xs0).1) = k2_pay2 xs0 x0 x1 := by
  refine (View.read_writes_eq_canon _ _ _ (View.cover_of_tiledL _ S512x512.size ?_)).trans ?_
  · sl_kernel_rfl
  unfold kernelRun2_C
  dsimp only
  sl_unfold_words
  rw [View.canon_unit_zero hz2, View.readCov_unit_zero (S := S512x512) _ hz2]
  simp only [View.readAt_eq_ld, harg3.read_unread, harg4.read_unread, harg6.read_unread, View.ld_unit_zero hz2 _ x0, View.ld_unit_zero hz2 _ x1, View.ld_unit_zero hz2 _ xs0]

end Cert.KernelIdeal.Hand

end
-- ==== Proof.KI.R2Body.lean ====
import proofs.«415579_j11768210391563_2_alg».proof.Proof.KI.R2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc2 (c : Dev nD) : (n : ℕ) → n < cfg2.N → Vec F S512x512 .f32
  | 0, hn => k2_pay2 k2_pay1 (iblk2 V c 0 ⟨0, hn⟩) (iblk2 V c 1 ⟨0, hn⟩)
  | n + 1, hn => k2_pay2 (if (n + 1) % 8 = 0 then k2_pay1 else acc2 c n (Nat.lt_of_succ_lt hn)) (iblk2 V c 0 ⟨n + 1, hn⟩) (iblk2 V c 1 ⟨n + 1, hn⟩)

theorem acc2_reset (c : Dev nD) (t : Fin cfg2.N) (h0 : t.val % 8 = 0) :
    acc2 V c t.val t.isLt = k2_pay2 k2_pay1 (iblk2 V c 0 t) (iblk2 V c 1 t) := by
  obtain ⟨_ | n, hn⟩ := t
  · rfl
  · exact congrArg (k2_pay2 · _ _) (if_pos h0)

theorem acc2_add (c : Dev nD) (t : Fin cfg2.N) (h0 : ¬t.val % 8 = 0) :
    acc2 V c t.val t.isLt = k2_pay2 (acc2 V c (t.val - 1) (Nat.lt_of_le_of_lt (Nat.sub_le _ _) t.isLt)) (iblk2 V c 0 t) (iblk2 V c 1 t) := by
  obtain ⟨_ | n, hn⟩ := t
  · exact absurd (Nat.zero_mod _) h0
  · exact congrArg (k2_pay2 · _ _) (if_neg h0)

def PhiS2 (c : Dev nD) : (n : ℕ) → n ≤ cfg2.N → sProp 𝕄
  | 0, _ => Pipeline.ΦA spec2 c
  | n + 1, hn => iprop(owns (c : Thread nD τ) scM2_0 fullShare (acc2 V c n hn) ∗ rest2 (F := F) c)

theorem PhiS2_pos (c : Dev nD) (n : ℕ) (h : n ≤ cfg2.N) (hz : n ≠ 0) :
    PhiS2 V c n h = iprop(owns (c : Thread nD τ) scM2_0 fullShare (acc2 V c (n - 1) (by omega)) ∗ rest2 (F := F) c) := by
  cases n with
  | zero => exact absurd rfl hz
  | succ n => rfl

theorem PhiS2_some (c : Dev nD) (n : ℕ) (h : n ≤ cfg2.N) :
    PhiS2 V c n h ⊢ iprop((∃ d, owns (c : Thread nD τ) scM2_0 fullShare d) ∗ rest2 (F := F) c) := by
  cases n with
  | zero => show (Pipeline.ΦA spec2 c : sProp 𝕄) ⊢ _; rw [PhiA2_eq]
  | succ n =>
    show iprop(owns (c : Thread nD τ) scM2_0 fullShare (acc2 V c n h) ∗ rest2 (F := F) c) ⊢ _
    iintro ⟨HS0, Hg⟩
    isplitl [HS0]; · iexists _; iexact HS0
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = acc2 V c t.val t.isLt := rfl

set_option maxHeartbeats 4800000 in

theorem body_obligation2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop(PhiS2 V c (t.val + 1) t.isLt ∗ (dat2 V c).owesAt () t.castSucc
        ∗ (dat2 V c).leavesExact 0 t ∗ (dat2 V c).leavesExact 1 t ∗ (dat2 V c).leavesExact 2 t))
  unfold bodyAt2
  simp only [before2_0_of V (dat2 V c) rfl (fun _ => rfl), before2_1_of V (dat2 V c) rfl (fun _ => rfl)]
  rw [show (dat2 V c).Φ t.castSucc = PhiS2 V c t.val (Nat.le_of_lt t.isLt) from rfl,
    show PhiS2 V c (t.val + 1) t.isLt = iprop(owns (c : Thread nD τ) scM2_0 fullShare (acc2 V c t.val t.isLt) ∗ rest2 (F := F) c) from rfl,
    show (dat2 V c).leavesExact 0 t = owns (c : Thread nD τ) (ms2_0 t) fullShare (iblk2 V c 0 t) from by
      unfold Dat.leavesExact; rw [liveAt2_0 t]; try rfl,
    show (dat2 V c).leavesExact 1 t = owns (c : Thread nD τ) (ms2_1 t) fullShare (iblk2 V c 1 t) from by
      unfold Dat.leavesExact; rw [liveAt2_1 t]; try rfl]
  by_cases h1 : t.val % 8 = 7
  · have h0 : ¬t.val % 8 = 0 := by omega
    have hz : t.val ≠ 0 := by omega
    rw [show (dat2 V c).leavesExact 2 t = owns (c : Thread nD τ) (ms2_2 t) fullShare (acc2 V c t.val t.isLt) from by
      unfold Dat.leavesExact; rw [liveAt2_2 t ((hcond2_1 t).mpr h1)]; try rfl,
      PhiS2_pos V c _ _ hz, acc2_add V c t h0]
    iintro ⟨⟨HS0, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact acc2_C ..
      iexact Hg
    isplitl [Ho]; · iexact Ho
    isplitl [H0]; · iexact H0
    isplitl [H1]; · iexact H1
    unfold owns; iexists _; isplitr
    swap; · iexact H2
    ipureintro; exact out2_C ..
  · rw [Dat.leavesExact_idle (dat2 V c) 2 t (idleAt2_2 t (fun h => h1 ((hcond2_1 t).mp h))) (noFlush2_2 t (fun h => h1 ((hcond2_1 t).mp h)))]
    by_cases h0 : t.val % 8 = 0
    · rw [acc2_reset V c t h0]
      iintro ⟨HΦ, Ho, ⟨%d0, H0⟩, ⟨%d1, H1⟩, ⟨%d2, H2⟩⟩
      ihave H := PhiS2_some V c _ _ $$ HΦ
      icases H with ⟨HS0, Hg⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc2_A ..
        iexact Hg
      isplitl [Ho]; · iexact Ho
      isplitl [H0]; · iexact H0
      isplitl [H1]; · iexact H1
      iexists _; iexact H2
    · have hz : t.val ≠ 0 := by omega
      rw [PhiS2_pos V c _ _ hz, acc2_add V c t h0]
      iintro ⟨⟨HS0, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact acc2_B ..
        iexact Hg
      isplitl [Ho]; · iexact Ho
      isplitl [H0]; · iexact H0
      isplitl [H1]; · iexact H1
      iexists _; iexact H2

theorem hout2 (c : Dev nD) : (dat2 V c).Φ (Fin.last cfg2.N) ⊢ Pipeline.ΦA spec2 c := by
  rw [PhiA2_eq]; exact PhiS2_some V c (Fin.last cfg2.N).val (Nat.le_of_lt_succ (Fin.last cfg2.N).isLt)

end Cert.KernelIdeal.Hand

end
-- ==== Proof.KI.Segs.lean ====
import proofs.«415579_j11768210391563_2_alg».proof.Proof.KI.R0Body
import proofs.«415579_j11768210391563_2_alg».proof.Proof.KI.R1Body
import proofs.«415579_j11768210391563_2_alg».proof.Proof.KI.R2Body
import proofs.«415579_j11768210391563_2_alg».proof.Proof.Gen.KernelIdeal.Regions
import proofs.«415579_j11768210391563_2_alg».proof.Proof.Gen.Pre_finite_inputs
import proofs.«415579_j11768210391563_2_alg».proof.Defs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def X2 (c : Dev nD) : Valuation τ sig (Elt F) :=
  Pipeline.withArrays spec0 c (Gen.V1 m c) fun w => (dat0 (atRefs (Gen.V1 m)) c).arrAt w cfg0.N

def outsA : Gen.Outs (F := F) := fun _ r c => X2 m c r

def X4 (c : Dev nD) : Valuation τ sig (Elt F) :=
  Pipeline.withArrays spec1 c (Gen.V3 m (outsA m) c) fun w => (dat1 (atRefs (Gen.V3 m (outsA m))) c).arrAt w cfg1.N

def outsB : Gen.Outs (F := F) := fun j r c => match j with
  | 2 => X2 m c r
  | _ => X4 m c r

def X18 (c : Dev nD) : Valuation τ sig (Elt F) :=
  Pipeline.withArrays spec2 c (Gen.V17 m (outsB m) c) fun w => (dat2 (atRefs (Gen.V17 m (outsB m))) c).arrAt w cfg2.N

def outs : Gen.Outs (F := F) := fun j r c => match j with
  | 2 => X2 m c r
  | 4 => X4 m c r
  | _ => X18 m c r

def pdats : (p : Fin 3) → (c : Dev nD) → Dat τ (Elt F) Unit ℕ (UR sig nD τ) ℕ (Pipeline.pin (pcfgs (F := F)) adm p) c
  | ⟨0, _⟩ => fun c => dat0 (atRefs (Gen.V1 m)) c
  | ⟨1, _⟩ => fun c => dat1 (atRefs (Gen.V3 m (outsA m))) c
  | ⟨2, _⟩ => fun c => dat2 (atRefs (Gen.V17 m (outsB m))) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

variable {p : Fin 3} (V : Dev nD → Valuation τ sig (Elt F)) (wo : Fin (cfgs p).W)

/-- The entry valuation with the one output array at its final contents. -/
def upd (c : Dev nD) : Valuation τ sig (Elt F) :=
  Function.update (V c) (Pipeline.arrRef (cfgs p).spec wo)
    (Pipeline.withArrays (cfgs p).spec c (V c) (fun w => (pdats m p c).arrAt w (cfgs p).N) (Pipeline.arrRef (cfgs p).spec wo))

/-- At the region's end every array is as `upd` says: an input array keeps its entry contents, the output array is read back. -/
theorem hF (lf : Pipeline.LaunchFacts (nD := nD) (τ := τ) cfgs p) (hin : ∀ w, w ≠ wo → ((cfgs p).win w).isOut = false) (c : Dev nD)
    (hA : ∀ w, (pdats m p c).A w = atRefs V c (Pipeline.arrRef (cfgs p).spec w)) (w : Fin (cfgs p).W) :
    (pdats m p c).arrAt w (cfgs p).N = atRefs (upd m V wo) c (Pipeline.arrRef (cfgs p).spec w) := by
  show _ = Function.update (V c) _ _ _
  by_cases h : w = wo
  · subst h; rw [Function.update_self]
    exact (Pipeline.withArrays_arr _ lf.win.arr_inj c (V c) (fun w => (pdats m p c).arrAt w (cfgs p).N) w).symm
  · rw [Function.update_of_ne (StableHlo.devRef_ne_of_ne fun e => h (lf.win.arr_inj e))]
    exact ((pdats m p c).arrAt_in w (hin w h) _).trans (hA w)

theorem hrest (c : Dev nD) (b : Ref sig .tc) (hb : b ∉ Finset.univ.image (Pipeline.arrRef (cfgs p).spec)) :
    atRefs (upd m V wo) c b = atRefs V c b :=
  Function.update_of_ne (StableHlo.devRef_ne_of_ne fun e => hb (Finset.mem_image.mpr ⟨wo, Finset.mem_univ _, e.symm⟩)) _ _

variable (lf : Pipeline.LaunchFacts (nD := nD) (τ := τ) cfgs p) (hin : ∀ w, w ≠ wo → ((cfgs p).win w).isOut = false)
  (hb : ∀ c, BodyObligation (pdats m p c) (defs₀ (F := F)) Variants.none () Set.univ)
  (hq : ∀ c w, (pdats m p c).q w = fullShare) (howed : ∀ c t, (pdats m p c).owed t = 0)
  (hrec : ∀ c t, (pdats m p c).recorded t = Set.univ)
  (hA : ∀ c w, (pdats m p c).A w = atRefs V c (Pipeline.arrRef (cfgs p).spec w))
  (hΦ : ∀ c, (pdats m p c).Φ 0 = Pipeline.ΦA (cfgs p).spec c)
  (ho : ∀ c, (pdats m p c).Φ (Fin.last (cfgs p).N) ⊢ Pipeline.ΦA (cfgs p).spec c)

set_option backward.isDefEq.respectTransparency.types false in
/-- One region's record: entered with the buffers at `V`, left with them at `upd`. -/
def reg : Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (upd m V wo c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    rw [Pipeline.ownSems0_none]
    have hsplit := Pipeline.arrays_of_unscopedBufs (p := p) (pcfgs (F := F)) adm (pdats m) lf.win lf.arr_whole c
      ((pdats m p c).share_full (hq c)) (atRefs V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl ((hrec c 0).symm ▸ trivial)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none]
    refine BI.Entails.trans (ho c) ?_
    show (Pipeline.ΦA (cfgs p).spec c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atRefs V c) (atRefs (upd m V wo) c) ((pdats m p c).arrAt · (cfgs p).N) (hF m V wo lf hin c (hA c)) (hrest m V wo c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := reg m (p := 0) (Gen.V1 m) 2 launch0 (by decide) (fun c => body_obligation0 _ c) (fun _ _ => rfl) (fun _ _ => rfl) (fun _ _ => rfl) (fun _ _ => rfl)
  (fun _ => rfl) (fun c => hout0 _ c)
def reg1 := reg m (p := 1) (Gen.V3 m (outs m)) 3 launch1 (by decide) (fun c => body_obligation1 _ c) (fun _ _ => rfl) (fun _ _ => rfl) (fun _ _ => rfl) (fun _ _ => rfl)
  (fun _ => rfl) (fun c => hout1 _ c)
def reg2 := reg m (p := 2) (Gen.V17 m (outs m)) 2 launch2 (by decide) (fun c => body_obligation2 _ c) (fun _ _ => rfl) (fun _ _ => rfl) (fun _ _ => rfl) (fun _ _ => rfl)
  (fun _ => rfl) (fun c => hout2 _ c)

abbrev u₀ : UR sig nD τ := initOf (Pipeline.cells cfgs cellOf_inj) (Pipeline.launchToks cfgs cellOf_inj)

theorem hu₀ : (ownU (u₀) : sProp 𝕄) ⊢ |={Set.univ}=> iprop(BI.own (emb₁ u₀) ∗ bigSep Finset.univ fun _ : Dev nD => iprop(emp)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts L lv)
      ⊢ (|={Set.univ}=> bigSep Finset.univ R : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R c ⊢ (iprop(∃ W, owes (c : Thread nD τ) (0 : CellTallies nD τ sig Unit) W) : sProp 𝕄) := by
  iintro ⟨-, HO⟩; iexact HO

set_option backward.isDefEq.respectTransparency.types false in
theorem frame : Cert.frame_KernelIdeal := fun m ρ _ =>
  Gen.frame_cond m emb₁ () 𝒱₀ L lv (fun _ _ => rfl) ρ (outs m) (pdats m) (O₀ := 0) (G := fun _ => iprop(emp)) (u₀ := u₀) hu₀
    (E := fun _ c => R c) (hE0 ρ) hE3
    (reg0 m) (fun c => .rfl) (fun c => .rfl) (reg1 m) (fun c => .rfl) (fun c => .rfl) (reg2 m) (fun c => .rfl) (fun c => .rfl)

theorem outs_2 (c : Dev nD) : outs m 2 main_v18 c = (dat0 (atRefs (Gen.V1 m)) c).arrAt 2 cfg0.N :=
  show X2 m c main_v18 = _ from Pipeline.withArrays_arr spec0 launch0.win.arr_inj c (Gen.V1 m c) _ 2
theorem outs_4 (c : Dev nD) : outs m 4 main_v20 c = (dat1 (atRefs (Gen.V3 m (outs m))) c).arrAt 3 cfg1.N :=
  show X4 m c main_v20 = _ from Pipeline.withArrays_arr spec1 launch1.win.arr_inj c (Gen.V3 m (outsA m) c) _ 3
theorem outs_18 (c : Dev nD) : outs m 18 main_v84 c = (dat2 (atRefs (Gen.V17 m (outs m))) c).arrAt 2 cfg2.N :=
  show X18 m c main_v84 = _ from Pipeline.withArrays_arr spec2 launch2.win.arr_inj c (Gen.V17 m (outsB m) c) _ 2

end Cert.KernelIdeal.Hand

end
-- ==== Proof.KI.Results.lean ====
import proofs.«415579_j11768210391563_2_alg».proof.Proof.KI.Segs
import proofs.«415579_j11768210391563_2_alg».proof.Proof.KI.RunValue

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

set_option backward.isDefEq.respectTransparency.types false in
theorem run_value (ρ : Dev nD → PrngReg) : θ_run defs (onTc (τ := τ) (main (F := F))) ⟨m, fun _ => 0, ρ⟩ (fun r => ∀ c : Dev nD,
      r.2.mem ((c.tc : Thread nD τ).loc main_v133) = Gen.V27 m (outs m) c main_v133
      ∧ r.2.mem ((c.tc : Thread nD τ).loc main_v132) = Gen.V27 m (outs m) c main_v132
      ∧ r.2.mem ((c.tc : Thread nD τ).loc main_v78) = Gen.V27 m (outs m) c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  run_cond_value m emb₁ () 𝒱₀ L lv (fun _ _ => rfl) ρ (outs m) (pdats m) (O₀ := 0) (G := fun _ => iprop(emp)) (u₀ := u₀) hu₀
    (E := fun _ c => R c) (hE0 ρ) hE3
    (reg0 m) (fun c => .rfl) (fun c => .rfl) (reg1 m) (fun c => .rfl) (fun c => .rfl) (reg2 m) (fun c => .rfl) (fun c => .rfl)

end Cert.KernelIdeal.Hand

end
-- ==== Proof.LibBlocked.lean ====
import Idealize.ShloMosaic.PureOps.Ideal.Laws
import Idealize.ShloMosaic.Lib.ValueIdx

noncomputable section

open scoped BigOperators

namespace Cert.LibBlocked

open Idealize.ShloMosaic Idealize.ShloMosaic.ValueIdx

/-- A rows-by-contraction dot at (p, q) sums, over the contraction coordinate kk, a (p, kk) * b (kk, q). -/
theorem dot_apply {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (a : (⟨2, ![M, K]⟩ : Shape).Idx → EReal) (b : (⟨2, ![K, N]⟩ : Shape).Idx → EReal) (p : Fin M) (q : Fin N) :
    ∑ k : D.contr.Idx, a (D.lhsIdx (ix2 p q) k) * b (D.rhsIdx (ix2 p q) k) = ∑ kk : Fin K, a (ix2 p kk) * b (ix2 kk q) := by
  obtain ⟨lc, rc, ln, rn, lb, rb, wf⟩ := D
  cases h1; cases h2; cases h3; cases h4; cases h5; cases h6
  rw [← Equiv.sum_comp (contrEquiv1 (⟨[1], [0], [0], [1], [], [], wf⟩ : DotDims _ _ _) K rfl rfl).symm]
  refine Finset.sum_congr rfl fun kk _ => ?_
  have hk := contrEquiv1_symm_val (⟨[1], [0], [0], [1], [], [], wf⟩ : DotDims _ _ _) K rfl rfl kk
  congr 2 <;> refine funext fun x => Fin.ext ?_
  · match x with
    | ⟨0, _⟩ => rfl
    | ⟨1, _⟩ => exact (DotDims.lhsIdx_val_of_single _ rfl _ _).trans hk
  · match x with
    | ⟨0, _⟩ => exact (DotDims.rhsIdx_val_of_single _ rfl _ _).trans hk
    | ⟨1, _⟩ => rfl

/-- Block j of a contraction over J blocks of K positions (zero past the last block). -/
def blk (J K : ℕ) (f : Fin (J * K) → EReal) (j : ℕ) : EReal :=
  if h : j < J then ∑ kk : Fin K, f ⟨j * K + kk.val, by
    have := kk.isLt; calc j * K + kk.val < j * K + K := by omega
      _ = (j + 1) * K := (Nat.succ_mul j K).symm
      _ ≤ J * K := Nat.mul_le_mul_right K h⟩ else 0

/-- A contraction is the sum of its blocks. -/
theorem sum_eq_blk (J K : ℕ) (f : Fin (J * K) → EReal) : ∑ k, f k = ∑ j ∈ Finset.range J, blk J K f j := by
  rw [Finset.sum_range, ← Equiv.sum_comp finProdFinEquiv, Fintype.sum_prod_type]
  refine Finset.sum_congr rfl fun j _ => ?_
  rw [blk, dif_pos j.isLt]
  exact Finset.sum_congr rfl fun kk _ => congrArg f (Fin.ext (by
    show kk.val + K * j.val = j.val * K + kk.val
    rw [Nat.mul_comm, Nat.add_comm]))

/-- Reset at position 0, else the point before plus this point's term: the partial sum of the row's terms so far. -/
theorem acc_eq {ρ : Type} {N : ℕ} (a : Fin N → EReal) (row : Fin N → ρ) (pos : Fin N → ℕ) (T : ρ → ℕ → EReal)
    (h0 : ∀ t, pos t = 0 → a t = T (row t) 0)
    (hs : ∀ t, pos t ≠ 0 → ∃ h : t.val - 1 < N, a t = a ⟨t.val - 1, h⟩ + T (row t) (pos t)
      ∧ row ⟨t.val - 1, h⟩ = row t ∧ pos ⟨t.val - 1, h⟩ + 1 = pos t) :
    ∀ t, a t = ∑ j ∈ Finset.range (pos t + 1), T (row t) j := by
  rintro ⟨n, hn⟩
  induction n with
  | zero =>
    by_cases hz : pos ⟨0, hn⟩ = 0
    · rw [h0 _ hz, hz, Finset.sum_range_one]
    · obtain ⟨h, -, -, e⟩ := hs _ hz
      exact absurd e (Nat.succ_ne_self _)
  | succ n ih =>
    by_cases hz : pos ⟨n + 1, hn⟩ = 0
    · rw [h0 _ hz, hz, Finset.sum_range_one]
    · obtain ⟨h, e1, e2, e3⟩ := hs _ hz
      rw [e1, Finset.sum_range_succ, ← e2, ← e3]
      exact congrArg (· + _) (ih h)

/-- A function of a rank-2 index depends on the index only through its two coordinates. -/
theorem at_ix2 {α : Type} {R C : ℕ} (X : (⟨2, ![R, C]⟩ : Shape).Idx → α) (e : (⟨2, ![R, C]⟩ : Shape).Idx) (r : Fin R)
    (k : Fin C) (h0 : (e 0).val = r.val) (h1 : (e 1).val = k.val) : X e = X (ix2 r k) :=
  congrArg X (funext fun a => Fin.ext (match a with | ⟨0, _⟩ => h0 | ⟨1, _⟩ => h1))

end Cert.LibBlocked

end
-- ==== Proof.R0Value.lean ====
import proofs.«415579_j11768210391563_2_alg».proof.Proof.KI.R0Body
import proofs.«415579_j11768210391563_2_alg».proof.Proof.LibBlocked
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal.Gen

section AtIdeal

theorem k0_pay1_apply (p q : Fin 1024) : (k0_pay1 (F := Ideal)) (ix2 p q) = 0 := by
  unfold k0_pay1
  simp only [shapeCast_self]
  exact Ideal.ofBits_zero_f32

theorem k0_pay2_apply (v3 : FVec Ideal S1024x1024 .f32) (a b : FVec Ideal S1024x1024 .bf16) (p q : Fin 1024) :
    k0_pay2 (F := Ideal) v3 a b (ix2 p q) = v3 (ix2 p q) + ∑ kk : Fin 1024, a (ix2 p kk) * b (ix2 kk q) := by
  unfold k0_pay2
  simp only [shapeCast_self]
  refine (addf_apply _ _ _).trans (congrArg (v3 (ix2 p q) + ·) ?_)
  exact (Ideal.matmul_constant_zero_apply dot_S1024x1024_S1024x1024_S1024x1024_1_0_0_1_n_n none a b (ix2 p q)).trans
    (Cert.LibBlocked.dot_apply _ rfl rfl rfl rfl rfl rfl a b p q)

variable (V : (c : Dev nD) → (b : Ref sig .tc) → Buf (Elt Ideal) ((c : Thread nD τ).loc b))

abbrev Aarr0 (c : Dev nD) : FVec Ideal S8192x8192 .bf16 := V c main_v15

abbrev Barr0 (c : Dev nD) : FVec Ideal S8192x1024 .bf16 := V c main_v17

abbrev ablk0 (c : Dev nD) (t : Fin cfg0.N) : FVec Ideal S1024x1024 .bf16 := iblk0 V c 0 t

abbrev bblk0 (c : Dev nD) (t : Fin cfg0.N) : FVec Ideal S1024x1024 .bf16 := iblk0 V c 1 t

theorem idx0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem lt64_0 (t : Fin cfg0.N) : t.val < 64 := lt_of_lt_of_eq t.isLt N_0

def rowOf0 (t : Fin cfg0.N) (p : Fin 1024) : Fin 8192 :=
  ⟨t.val / 8 * 1024 + p.val, by have := lt64_0 t; have := p.isLt; omega⟩

theorem ablk0_apply (c : Dev nD) (t : Fin cfg0.N) (p kk : Fin 1024) (r k : Fin 8192)
    (hr : r.val = t.val / 8 * 1024 + p.val) (hk : k.val = t.val % 8 * 1024 + kk.val) :
    ablk0 V c t (ix2 p kk) = Aarr0 V c (ix2 r k) := by
  obtain ⟨e0, e1, -⟩ := idx0 t
  exact Cert.LibBlocked.at_ix2 (V c main_v15) (((cfg0.win 0).blk t).view.emb (ix2 p kk)) _ _
    (by show win0_0.index t (0 : Fin 2) * 1024 + 1 * p.val = r.val; rw [e0, hr]; omega)
    (by show win0_0.index t (1 : Fin 2) * 1024 + 1 * kk.val = k.val; rw [e1, hk]; omega)

theorem bblk0_apply (c : Dev nD) (t : Fin cfg0.N) (kk q : Fin 1024) (k : Fin 8192)
    (hk : k.val = t.val % 8 * 1024 + kk.val) :
    bblk0 V c t (ix2 kk q) = Barr0 V c (ix2 k q) := by
  obtain ⟨-, -, e2, e3, -⟩ := idx0 t
  exact Cert.LibBlocked.at_ix2 (V c main_v17) (((cfg0.win 1).blk t).view.emb (ix2 kk q)) _ _
    (by show win0_1.index t (0 : Fin 2) * 1024 + 1 * kk.val = k.val; rw [e2, hk]; omega)
    (by show win0_1.index t (1 : Fin 2) * 1024 + 1 * q.val = q.val; rw [e3]; omega)

/-- The products that make up entry (r, q) of A · B, by contraction position. -/
abbrev prod0 (A : FVec Ideal S8192x8192 .bf16) (B : FVec Ideal S8192x1024 .bf16) (r : Fin 8192) (q : Fin 1024)
    (k : Fin (8 * 1024)) : EReal := A (ix2 r k) * B (ix2 k q)

theorem point_term0 (c : Dev nD) (t : Fin cfg0.N) (p : Fin 1024) (q : Fin 1024) :
    ∑ kk : Fin 1024, ablk0 V c t (ix2 p kk) * bblk0 V c t (ix2 kk q)
      = Cert.LibBlocked.blk 8 1024 (prod0 (Aarr0 V c) (Barr0 V c) (rowOf0 t p) q) (t.val % 8) := by
  rw [Cert.LibBlocked.blk, dif_pos (Nat.mod_lt _ (by decide))]
  refine Finset.sum_congr rfl fun kk _ => ?_
  rw [ablk0_apply V c t p kk (rowOf0 t p) ⟨t.val % 8 * 1024 + kk.val, by have := kk.isLt; omega⟩ rfl rfl,
    bblk0_apply V c t kk q ⟨t.val % 8 * 1024 + kk.val, by have := kk.isLt; omega⟩ rfl]

theorem acc0_eq (c : Dev nD) (p : Fin 1024) (q : Fin 1024) (t : Fin cfg0.N) :
    acc0 V c t.val t.isLt (ix2 p q)
      = ∑ j ∈ Finset.range (t.val % 8 + 1), Cert.LibBlocked.blk 8 1024 (prod0 (Aarr0 V c) (Barr0 V c) (rowOf0 t p) q) j := by
  refine Cert.LibBlocked.acc_eq (fun t => acc0 V c t.val t.isLt (ix2 p q)) (fun t => rowOf0 t p) (fun t => t.val % 8)
    (fun r j => Cert.LibBlocked.blk 8 1024 (prod0 (Aarr0 V c) (Barr0 V c) r q) j) (fun t h0 => ?_) (fun t h0 => ?_) t
  · show acc0 V c t.val t.isLt (ix2 p q) = _
    rw [acc0_reset V c t h0, k0_pay2_apply, k0_pay1_apply, zero_add, point_term0 V c t p q, h0]
  · have hlt : t.val - 1 < cfg0.N := Nat.lt_of_le_of_lt (Nat.sub_le _ _) t.isLt
    refine ⟨hlt, ?_, Fin.ext ?_, ?_⟩
    · show acc0 V c t.val t.isLt (ix2 p q) = acc0 V c (t.val - 1) hlt (ix2 p q) + _
      rw [acc0_add V c t h0, k0_pay2_apply, point_term0 V c t p q]
    · show (t.val - 1) / 8 * 1024 + p.val = t.val / 8 * 1024 + p.val
      omega
    · show (t.val - 1) % 8 + 1 = t.val % 8
      omega

def G0 (A : FVec Ideal S8192x8192 .bf16) (B : FVec Ideal S8192x1024 .bf16) : FVec Ideal S8192x1024 .f32 :=
  fun i => ∑ k, prod0 A B ⟨(i 0).val, idx2_lt0 i⟩ ⟨(i 1).val, idx2_lt1 i⟩ k

theorem flushed0_eq (c : Dev nD) (t : Fin cfg0.N) (hf : (cfg0.win 2).flush t = true) :
    (dat0 V c).flushed 2 t = ((cfg0.win 2).blk t).view.read (Elt Ideal) (G0 (Aarr0 V c) (Barr0 V c)) := by
  have h7 : t.val % 8 = 7 := (flush0_2 t).mp hf
  obtain ⟨-, -, -, -, e4, e5⟩ := idx0 t
  show (cfg0.win 2).cut (grid0.coords t) ((dat0 V c).after 2 t) = _
  rw [after0_2]
  funext y
  obtain ⟨p, q, rfl⟩ : ∃ (p q : Fin 1024), y = ix2 p q := ⟨y 0, y 1, eq_ix2 y⟩
  rw [View.read_apply, Cert.LibBlocked.at_ix2 (G0 (Aarr0 V c) (Barr0 V c)) (((cfg0.win 2).blk t).view.emb (ix2 p q)) (rowOf0 t p) q
    (by show win0_2.index t (0 : Fin 2) * 1024 + 1 * p.val = t.val / 8 * 1024 + p.val; rw [e4]; omega)
    (by show win0_2.index t (1 : Fin 2) * 1024 + 1 * q.val = q.val; rw [e5]; omega)]
  show acc0 V c t.val t.isLt (ix2 p q) = ∑ k, prod0 (Aarr0 V c) (Barr0 V c) (rowOf0 t p) q k
  rw [acc0_eq V c p q t, h7]
  exact (Cert.LibBlocked.sum_eq_blk 8 1024 _).symm

theorem mem_blk0 (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v18).slice (win0_2.rect t)).set ↔ _
  rw [View.set_slice_whole, Rect.mem_set_unit]
  exact Iff.rfl

theorem cover0 (i : S8192x1024.Idx) :
    ∃ t : Fin cfg0.N, (cfg0.win 2).flush t = true ∧ i ∈ ((cfg0.win 2).blk t).view.set := by
  have hi0 : (i 0).val < 8192 := idx2_lt0 i
  have hi1 : (i 1).val < 1024 := idx2_lt1 i
  obtain ⟨t, ht⟩ : ∃ t : Fin cfg0.N, t.val = 8 * ((i 0).val / 1024) + 7 :=
    ⟨⟨8 * ((i 0).val / 1024) + 7, lt_of_lt_of_eq (by omega : 8 * ((i 0).val / 1024) + 7 < 64) N_0.symm⟩, rfl⟩
  obtain ⟨-, -, -, -, e4, e5⟩ := idx0 t
  refine ⟨t, (flush0_2 t).mpr (by omega), ?_⟩
  rw [mem_blk0]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 1024 ≤ (i 1).val ∧ (i 1).val < win0_2.index t (1 : Fin 2) * 1024 + 1024; rw [e5]; omega

theorem final0 (c : Dev nD) (i : Fin 8192) (j : Fin 1024) :
    (dat0 (F := Ideal) V c).arrAt 2 cfg0.N (ix2 i j)
      = 0 + ∑ k : Fin 8192, Aarr0 V c (ix2 i k) * Barr0 V c (ix2 k j) := by
  rw [zero_add]
  exact congrFun ((dat0 V c).arrAt_eq_of_cover 2 (G0 (Aarr0 V c) (Barr0 V c)) (fun t ht => flushed0_eq V c t ht) cover0) (ix2 i j)

end AtIdeal

end Cert.KernelIdeal.Hand

end
-- ==== Proof.R1Value.lean ====
import proofs.«415579_j11768210391563_2_alg».proof.Proof.KI.R1Body
import proofs.«415579_j11768210391563_2_alg».proof.Proof.LibBlocked
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal.Gen

section AtIdeal

theorem k1_pay1_apply (p q : Fin 1024) : (k1_pay1 (F := Ideal)) (ix2 p q) = 0 := by
  unfold k1_pay1
  simp only [shapeCast_self]
  exact Ideal.ofBits_zero_f32

theorem k1_pay2_apply (v3 : FVec Ideal S1024x1024 .f32) (a b : FVec Ideal S1024x1024 .bf16) (p q : Fin 1024) :
    k1_pay2 (F := Ideal) v3 a b (ix2 p q) = v3 (ix2 p q) + ∑ kk : Fin 1024, a (ix2 p kk) * b (ix2 kk q) := by
  unfold k1_pay2
  simp only [shapeCast_self]
  refine (addf_apply _ _ _).trans (congrArg (v3 (ix2 p q) + ·) ?_)
  exact (Ideal.matmul_constant_zero_apply dot_S1024x1024_S1024x1024_S1024x1024_1_0_0_1_n_n none a b (ix2 p q)).trans
    (Cert.LibBlocked.dot_apply _ rfl rfl rfl rfl rfl rfl a b p q)

abbrev two1 : EReal := Ideal.ofBits .f32 0x40000000#32

theorem k1_pay3_apply (v16 v19 : FVec Ideal S1024x1024 .f32) (p q : Fin 1024) :
    k1_pay3 (F := Ideal) v16 v19 (ix2 p q) = two1 * v16 (ix2 p q) - v19 (ix2 p q) := by
  unfold k1_pay3
  simp only [shapeCast_self]
  rfl

variable (V : (c : Dev nD) → (b : Ref sig .tc) → Buf (Elt Ideal) ((c : Thread nD τ).loc b))

abbrev Aarr1 (c : Dev nD) : FVec Ideal S8192x8192 .bf16 := V c main_v15

abbrev Barr1 (c : Dev nD) : FVec Ideal S8192x1024 .bf16 := V c main_v19

abbrev Xarr1 (c : Dev nD) : FVec Ideal S8192x1024 .f32 := V c main_v16

abbrev ablk1 (c : Dev nD) (t : Fin cfg1.N) : FVec Ideal S1024x1024 .bf16 := iblk1 V c 0 t

abbrev bblk1 (c : Dev nD) (t : Fin cfg1.N) : FVec Ideal S1024x1024 .bf16 := iblk1 V c 1 t

abbrev xblk1 (c : Dev nD) (t : Fin cfg1.N) : FVec Ideal S1024x1024 .f32 := iblk1 V c 2 t

theorem idx1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

theorem lt64_1 (t : Fin cfg1.N) : t.val < 64 := lt_of_lt_of_eq t.isLt N_1

def rowOf1 (t : Fin cfg1.N) (p : Fin 1024) : Fin 8192 :=
  ⟨t.val / 8 * 1024 + p.val, by have := lt64_1 t; have := p.isLt; omega⟩

theorem ablk1_apply (c : Dev nD) (t : Fin cfg1.N) (p kk : Fin 1024) (r k : Fin 8192)
    (hr : r.val = t.val / 8 * 1024 + p.val) (hk : k.val = t.val % 8 * 1024 + kk.val) :
    ablk1 V c t (ix2 p kk) = Aarr1 V c (ix2 r k) := by
  obtain ⟨e0, e1, -⟩ := idx1 t
  exact Cert.LibBlocked.at_ix2 (V c main_v15) (((cfg1.win 0).blk t).view.emb (ix2 p kk)) _ _
    (by show win1_0.index t (0 : Fin 2) * 1024 + 1 * p.val = r.val; rw [e0, hr]; omega)
    (by show win1_0.index t (1 : Fin 2) * 1024 + 1 * kk.val = k.val; rw [e1, hk]; omega)

theorem bblk1_apply (c : Dev nD) (t : Fin cfg1.N) (kk q : Fin 1024) (k : Fin 8192)
    (hk : k.val = t.val % 8 * 1024 + kk.val) :
    bblk1 V c t (ix2 kk q) = Barr1 V c (ix2 k q) := by
  obtain ⟨-, -, e2, e3, -⟩ := idx1 t
  exact Cert.LibBlocked.at_ix2 (V c main_v19) (((cfg1.win 1).blk t).view.emb (ix2 kk q)) _ _
    (by show win1_1.index t (0 : Fin 2) * 1024 + 1 * kk.val = k.val; rw [e2, hk]; omega)
    (by show win1_1.index t (1 : Fin 2) * 1024 + 1 * q.val = q.val; rw [e3]; omega)

theorem xblk1_apply (c : Dev nD) (t : Fin cfg1.N) (p q : Fin 1024) (r : Fin 8192)
    (hr : r.val = t.val / 8 * 1024 + p.val) :
    xblk1 V c t (ix2 p q) = Xarr1 V c (ix2 r q) := by
  obtain ⟨-, -, -, -, e4, e5, -⟩ := idx1 t
  exact Cert.LibBlocked.at_ix2 (V c main_v16) (((cfg1.win 2).blk t).view.emb (ix2 p q)) _ _
    (by show win1_2.index t (0 : Fin 2) * 1024 + 1 * p.val = r.val; rw [e4, hr]; omega)
    (by show win1_2.index t (1 : Fin 2) * 1024 + 1 * q.val = q.val; rw [e5]; omega)

/-- The products that make up entry (r, q) of A · B, by contraction position. -/
abbrev prod1 (A : FVec Ideal S8192x8192 .bf16) (B : FVec Ideal S8192x1024 .bf16) (r : Fin 8192) (q : Fin 1024)
    (k : Fin (8 * 1024)) : EReal := A (ix2 r k) * B (ix2 k q)

theorem point_term1 (c : Dev nD) (t : Fin cfg1.N) (p : Fin 1024) (q : Fin 1024) :
    ∑ kk : Fin 1024, ablk1 V c t (ix2 p kk) * bblk1 V c t (ix2 kk q)
      = Cert.LibBlocked.blk 8 1024 (prod1 (Aarr1 V c) (Barr1 V c) (rowOf1 t p) q) (t.val % 8) := by
  rw [Cert.LibBlocked.blk, dif_pos (Nat.mod_lt _ (by decide))]
  refine Finset.sum_congr rfl fun kk _ => ?_
  rw [ablk1_apply V c t p kk (rowOf1 t p) ⟨t.val % 8 * 1024 + kk.val, by have := kk.isLt; omega⟩ rfl rfl,
    bblk1_apply V c t kk q ⟨t.val % 8 * 1024 + kk.val, by have := kk.isLt; omega⟩ rfl]

theorem acc1_eq (c : Dev nD) (p : Fin 1024) (q : Fin 1024) (t : Fin cfg1.N) :
    acc1 V c t.val t.isLt (ix2 p q)
      = ∑ j ∈ Finset.range (t.val % 8 + 1), Cert.LibBlocked.blk 8 1024 (prod1 (Aarr1 V c) (Barr1 V c) (rowOf1 t p) q) j := by
  refine Cert.LibBlocked.acc_eq (fun t => acc1 V c t.val t.isLt (ix2 p q)) (fun t => rowOf1 t p) (fun t => t.val % 8)
    (fun r j => Cert.LibBlocked.blk 8 1024 (prod1 (Aarr1 V c) (Barr1 V c) r q) j) (fun t h0 => ?_) (fun t h0 => ?_) t
  · show acc1 V c t.val t.isLt (ix2 p q) = _
    rw [acc1_reset V c t h0, k1_pay2_apply, k1_pay1_apply, zero_add, point_term1 V c t p q, h0]
  · have hlt : t.val - 1 < cfg1.N := Nat.lt_of_le_of_lt (Nat.sub_le _ _) t.isLt
    refine ⟨hlt, ?_, Fin.ext ?_, ?_⟩
    · show acc1 V c t.val t.isLt (ix2 p q) = acc1 V c (t.val - 1) hlt (ix2 p q) + _
      rw [acc1_add V c t h0, k1_pay2_apply, point_term1 V c t p q]
    · show (t.val - 1) / 8 * 1024 + p.val = t.val / 8 * 1024 + p.val
      omega
    · show (t.val - 1) % 8 + 1 = t.val % 8
      omega

def gout1 (A : FVec Ideal S8192x8192 .bf16) (B : FVec Ideal S8192x1024 .bf16) (X : FVec Ideal S8192x1024 .f32) (r : Fin 8192) (q : Fin 1024) : EReal :=
  two1 * (∑ k, prod1 A B r q k) - X (ix2 r q)

def G1 (A : FVec Ideal S8192x8192 .bf16) (B : FVec Ideal S8192x1024 .bf16) (X : FVec Ideal S8192x1024 .f32) : FVec Ideal S8192x1024 .f32 :=
  fun i => gout1 A B X ⟨(i 0).val, idx2_lt0 i⟩ ⟨(i 1).val, idx2_lt1 i⟩

theorem flushed1_eq (c : Dev nD) (t : Fin cfg1.N) (hf : (cfg1.win 3).flush t = true) :
    (dat1 V c).flushed 3 t = ((cfg1.win 3).blk t).view.read (Elt Ideal) (G1 (Aarr1 V c) (Barr1 V c) (Xarr1 V c)) := by
  have h7 : t.val % 8 = 7 := (flush1_3 t).mp hf
  obtain ⟨-, -, -, -, -, -, e6, e7⟩ := idx1 t
  show (cfg1.win 3).cut (grid1.coords t) ((dat1 V c).after 3 t) = _
  rw [after1_3]
  funext y
  obtain ⟨p, q, rfl⟩ : ∃ (p q : Fin 1024), y = ix2 p q := ⟨y 0, y 1, eq_ix2 y⟩
  rw [View.read_apply, Cert.LibBlocked.at_ix2 (G1 (Aarr1 V c) (Barr1 V c) (Xarr1 V c)) (((cfg1.win 3).blk t).view.emb (ix2 p q)) (rowOf1 t p) q
    (by show win1_3.index t (0 : Fin 2) * 1024 + 1 * p.val = t.val / 8 * 1024 + p.val; rw [e6]; omega)
    (by show win1_3.index t (1 : Fin 2) * 1024 + 1 * q.val = q.val; rw [e7]; omega)]
  refine (k1_pay3_apply (acc1 V c t.val t.isLt) (xblk1 V c t) p q).trans ?_
  show _ = two1 * (∑ k, prod1 (Aarr1 V c) (Barr1 V c) (rowOf1 t p) q k) - Xarr1 V c (ix2 (rowOf1 t p) q)
  rw [acc1_eq V c p q t, h7, xblk1_apply V c t p q (rowOf1 t p) rfl, ← Cert.LibBlocked.sum_eq_blk 8 1024]

theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v20).slice (win1_3.rect t)).set ↔ _
  rw [View.set_slice_whole, Rect.mem_set_unit]
  exact Iff.rfl

theorem cover1 (i : S8192x1024.Idx) :
    ∃ t : Fin cfg1.N, (cfg1.win 3).flush t = true ∧ i ∈ ((cfg1.win 3).blk t).view.set := by
  have hi0 : (i 0).val < 8192 := idx2_lt0 i
  have hi1 : (i 1).val < 1024 := idx2_lt1 i
  obtain ⟨t, ht⟩ : ∃ t : Fin cfg1.N, t.val = 8 * ((i 0).val / 1024) + 7 :=
    ⟨⟨8 * ((i 0).val / 1024) + 7, lt_of_lt_of_eq (by omega : 8 * ((i 0).val / 1024) + 7 < 64) N_1.symm⟩, rfl⟩
  obtain ⟨-, -, -, -, -, -, e6, e7⟩ := idx1 t
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; rw [e6]; omega
  | ⟨1, _⟩ => show win1_3.index t (1 : Fin 2) * 1024 ≤ (i 1).val ∧ (i 1).val < win1_3.index t (1 : Fin 2) * 1024 + 1024; rw [e7]; omega

theorem final1 (c : Dev nD) (i : Fin 8192) (j : Fin 1024) :
    (dat1 (F := Ideal) V c).arrAt 3 cfg1.N (ix2 i j)
      = Ideal.ofBits .f32 0x40000000#32 * (0 + ∑ k : Fin 8192, Aarr1 V c (ix2 i k) * Barr1 V c (ix2 k j)) - Xarr1 V c (ix2 i j) := by
  rw [zero_add]
  exact congrFun ((dat1 V c).arrAt_eq_of_cover 3 (G1 (Aarr1 V c) (Barr1 V c) (Xarr1 V c)) (fun t ht => flushed1_eq V c t ht) cover1) (ix2 i j)

end AtIdeal

end Cert.KernelIdeal.Hand

end
-- ==== Proof.R2Value.lean ====
import proofs.«415579_j11768210391563_2_alg».proof.Proof.KI.R2Body
import proofs.«415579_j11768210391563_2_alg».proof.Proof.LibBlocked
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal.Gen

section AtIdeal

theorem k2_pay1_apply (p q : Fin 512) : (k2_pay1 (F := Ideal)) (ix2 p q) = 0 := by
  unfold k2_pay1
  simp only [shapeCast_self]
  exact Ideal.ofBits_zero_f32

theorem k2_pay2_apply (v3 : FVec Ideal S512x512 .f32) (a : FVec Ideal S512x2560 .bf16) (b : FVec Ideal S2560x512 .bf16) (p q : Fin 512) :
    k2_pay2 (F := Ideal) v3 a b (ix2 p q) = v3 (ix2 p q) + ∑ kk : Fin 2560, a (ix2 p kk) * b (ix2 kk q) := by
  unfold k2_pay2
  simp only [shapeCast_self]
  refine (addf_apply _ _ _).trans (congrArg (v3 (ix2 p q) + ·) ?_)
  exact (Ideal.matmul_constant_zero_apply dot_S512x2560_S2560x512_S512x512_1_0_0_1_n_n none a b (ix2 p q)).trans
    (Cert.LibBlocked.dot_apply _ rfl rfl rfl rfl rfl rfl a b p q)

variable (V : (c : Dev nD) → (b : Ref sig .tc) → Buf (Elt Ideal) ((c : Thread nD τ).loc b))

abbrev Aarr2 (c : Dev nD) : FVec Ideal S1024x20480 .bf16 := V c main_v81

abbrev Barr2 (c : Dev nD) : FVec Ideal S20480x512 .bf16 := V c main_v83

abbrev ablk2 (c : Dev nD) (t : Fin cfg2.N) : FVec Ideal S512x2560 .bf16 := iblk2 V c 0 t

abbrev bblk2 (c : Dev nD) (t : Fin cfg2.N) : FVec Ideal S2560x512 .bf16 := iblk2 V c 1 t

theorem idx2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

theorem lt16_2 (t : Fin cfg2.N) : t.val < 16 := lt_of_lt_of_eq t.isLt N_2

def rowOf2 (t : Fin cfg2.N) (p : Fin 512) : Fin 1024 :=
  ⟨t.val / 8 * 512 + p.val, by have := lt16_2 t; have := p.isLt; omega⟩

theorem ablk2_apply (c : Dev nD) (t : Fin cfg2.N) (p : Fin 512) (kk : Fin 2560) (r : Fin 1024) (k : Fin 20480)
    (hr : r.val = t.val / 8 * 512 + p.val) (hk : k.val = t.val % 8 * 2560 + kk.val) :
    ablk2 V c t (ix2 p kk) = Aarr2 V c (ix2 r k) := by
  obtain ⟨e0, e1, -⟩ := idx2 t
  exact Cert.LibBlocked.at_ix2 (V c main_v81) (((cfg2.win 0).blk t).view.emb (ix2 p kk)) _ _
    (by show win2_0.index t (0 : Fin 2) * 512 + 1 * p.val = r.val; rw [e0, hr]; omega)
    (by show win2_0.index t (1 : Fin 2) * 2560 + 1 * kk.val = k.val; rw [e1, hk]; omega)

theorem bblk2_apply (c : Dev nD) (t : Fin cfg2.N) (kk : Fin 2560) (q : Fin 512) (k : Fin 20480)
    (hk : k.val = t.val % 8 * 2560 + kk.val) :
    bblk2 V c t (ix2 kk q) = Barr2 V c (ix2 k q) := by
  obtain ⟨-, -, e2, e3, -⟩ := idx2 t
  exact Cert.LibBlocked.at_ix2 (V c main_v83) (((cfg2.win 1).blk t).view.emb (ix2 kk q)) _ _
    (by show win2_1.index t (0 : Fin 2) * 2560 + 1 * kk.val = k.val; rw [e2, hk]; omega)
    (by show win2_1.index t (1 : Fin 2) * 512 + 1 * q.val = q.val; rw [e3]; omega)

/-- The products that make up entry (r, q) of A · B, by contraction position. -/
abbrev prod2 (A : FVec Ideal S1024x20480 .bf16) (B : FVec Ideal S20480x512 .bf16) (r : Fin 1024) (q : Fin 512)
    (k : Fin (8 * 2560)) : EReal := A (ix2 r k) * B (ix2 k q)

theorem point_term2 (c : Dev nD) (t : Fin cfg2.N) (p : Fin 512) (q : Fin 512) :
    ∑ kk : Fin 2560, ablk2 V c t (ix2 p kk) * bblk2 V c t (ix2 kk q)
      = Cert.LibBlocked.blk 8 2560 (prod2 (Aarr2 V c) (Barr2 V c) (rowOf2 t p) q) (t.val % 8) := by
  rw [Cert.LibBlocked.blk, dif_pos (Nat.mod_lt _ (by decide))]
  refine Finset.sum_congr rfl fun kk _ => ?_
  rw [ablk2_apply V c t p kk (rowOf2 t p) ⟨t.val % 8 * 2560 + kk.val, by have := kk.isLt; omega⟩ rfl rfl,
    bblk2_apply V c t kk q ⟨t.val % 8 * 2560 + kk.val, by have := kk.isLt; omega⟩ rfl]

theorem acc2_eq (c : Dev nD) (p : Fin 512) (q : Fin 512) (t : Fin cfg2.N) :
    acc2 V c t.val t.isLt (ix2 p q)
      = ∑ j ∈ Finset.range (t.val % 8 + 1), Cert.LibBlocked.blk 8 2560 (prod2 (Aarr2 V c) (Barr2 V c) (rowOf2 t p) q) j := by
  refine Cert.LibBlocked.acc_eq (fun t => acc2 V c t.val t.isLt (ix2 p q)) (fun t => rowOf2 t p) (fun t => t.val % 8)
    (fun r j => Cert.LibBlocked.blk 8 2560 (prod2 (Aarr2 V c) (Barr2 V c) r q) j) (fun t h0 => ?_) (fun t h0 => ?_) t
  · show acc2 V c t.val t.isLt (ix2 p q) = _
    rw [acc2_reset V c t h0, k2_pay2_apply, k2_pay1_apply, zero_add, point_term2 V c t p q, h0]
  · have hlt : t.val - 1 < cfg2.N := Nat.lt_of_le_of_lt (Nat.sub_le _ _) t.isLt
    refine ⟨hlt, ?_, Fin.ext ?_, ?_⟩
    · show acc2 V c t.val t.isLt (ix2 p q) = acc2 V c (t.val - 1) hlt (ix2 p q) + _
      rw [acc2_add V c t h0, k2_pay2_apply, point_term2 V c t p q]
    · show (t.val - 1) / 8 * 512 + p.val = t.val / 8 * 512 + p.val
      omega
    · show (t.val - 1) % 8 + 1 = t.val % 8
      omega

def G2 (A : FVec Ideal S1024x20480 .bf16) (B : FVec Ideal S20480x512 .bf16) : FVec Ideal S1024x512 .f32 :=
  fun i => ∑ k, prod2 A B ⟨(i 0).val, idx2_lt0 i⟩ ⟨(i 1).val, idx2_lt1 i⟩ k

theorem G2_apply (A : FVec Ideal S1024x20480 .bf16) (B : FVec Ideal S20480x512 .bf16) (i : S1024x512.Idx) (r : Fin 1024)
    (q : Fin 512) (hr : (i 0).val = r.val) (hq : (i 1).val = q.val) : G2 A B i = ∑ k, prod2 A B r q k :=
  Cert.LibBlocked.at_ix2 (G2 A B) i r q hr hq

theorem read_blk2 (Gf : FVec Ideal S1024x512 .f32) (t : Fin cfg2.N) (p q : Fin 512) :
    ((cfg2.win 2).blk t).view.read (Elt Ideal) Gf (ix2 p q) = Gf (((cfg2.win 2).blk t).view.emb (ix2 p q)) := rfl

theorem flushed2_eq (c : Dev nD) (t : Fin cfg2.N) (hf : (cfg2.win 2).flush t = true) :
    (dat2 V c).flushed 2 t = ((cfg2.win 2).blk t).view.read (Elt Ideal) (G2 (Aarr2 V c) (Barr2 V c)) := by
  have h7 : t.val % 8 = 7 := (flush2_2 t).mp hf
  obtain ⟨-, -, -, -, e4, e5⟩ := idx2 t
  show (cfg2.win 2).cut (grid2.coords t) ((dat2 V c).after 2 t) = _
  rw [after2_2]
  funext y
  obtain ⟨p, q, rfl⟩ : ∃ (p q : Fin 512), y = ix2 p q := ⟨y 0, y 1, eq_ix2 y⟩
  refine Eq.trans ?_ (read_blk2 (G2 (Aarr2 V c) (Barr2 V c)) t p q).symm
  show acc2 V c t.val t.isLt (ix2 p q) = _
  rw [G2_apply (Aarr2 V c) (Barr2 V c) (((cfg2.win 2).blk t).view.emb (ix2 p q)) (rowOf2 t p) q
      (by show win2_2.index t (0 : Fin 2) * 512 + 1 * p.val = t.val / 8 * 512 + p.val; rw [e4]; omega)
      (by show win2_2.index t (1 : Fin 2) * 512 + 1 * q.val = q.val; rw [e5]; omega),
    acc2_eq V c p q t, h7]
  exact (Cert.LibBlocked.sum_eq_blk 8 2560 _).symm

theorem mem_blk2 (t : Fin cfg2.N) (i : S1024x512.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v84).slice (win2_2.rect t)).set ↔ _
  rw [View.set_slice_whole, Rect.mem_set_unit]
  exact Iff.rfl

theorem cover2 (i : S1024x512.Idx) :
    ∃ t : Fin cfg2.N, (cfg2.win 2).flush t = true ∧ i ∈ ((cfg2.win 2).blk t).view.set := by
  have hi0 : (i 0).val < 1024 := idx2_lt0 i
  have hi1 : (i 1).val < 512 := idx2_lt1 i
  obtain ⟨t, ht⟩ : ∃ t : Fin cfg2.N, t.val = 8 * ((i 0).val / 512) + 7 :=
    ⟨⟨8 * ((i 0).val / 512) + 7, lt_of_lt_of_eq (by omega : 8 * ((i 0).val / 512) + 7 < 16) N_2.symm⟩, rfl⟩
  obtain ⟨-, -, -, -, e4, e5⟩ := idx2 t
  refine ⟨t, (flush2_2 t).mpr (by omega), ?_⟩
  rw [mem_blk2]
  intro a
  match a with
  | ⟨0, _⟩ => show win2_2.index t (0 : Fin 2) * 512 ≤ (i 0).val ∧ (i 0).val < win2_2.index t (0 : Fin 2) * 512 + 512; rw [e4]; omega
  | ⟨1, _⟩ => show win2_2.index t (1 : Fin 2) * 512 ≤ (i 1).val ∧ (i 1).val < win2_2.index t (1 : Fin 2) * 512 + 512; rw [e5]; omega

theorem final2 (c : Dev nD) (i : Fin 1024) (j : Fin 512) :
    (dat2 (F := Ideal) V c).arrAt 2 cfg2.N (ix2 i j)
      = 0 + ∑ k : Fin 20480, Aarr2 V c (ix2 i k) * Barr2 V c (ix2 k j) := by
  rw [zero_add]
  exact congrFun ((dat2 V c).arrAt_eq_of_cover 2 (G2 (Aarr2 V c) (Barr2 V c)) (fun t ht => flushed2_eq V c t ht) cover2) (ix2 i j)

end AtIdeal

end Cert.KernelIdeal.Hand

end
-- ==== Proof.SpecT.lean ====
import proofs.«415579_j11768210391563_2_alg».proof.Proof.Gen.KernelIdeal
import Idealize.ShloMosaic.PureOps.Ideal

noncomputable section

namespace Cert.SpecT

open Cert.KernelIdeal Cert.KernelIdeal.Gen Idealize.ShloMosaic Idealize.SL.Sem

variable {s sw swT sb sb1 so : Shape} {p : List (Fin sw.rank)} {d1 : Fin sb.rank → Fin sb1.rank} {d2 : Fin sb1.rank → Fin so.rank}

/-- The scalar of bit pattern `v` at every index of `s`. -/
def fill (hb : S_.BroadcastsInDim s (![] : Fin 0 → Fin s.rank)) (v : BitVec 32) : FVec Ideal s .f32 :=
  broadcastInDim s ![] hb (constant (F := Ideal) S_ .f32 v)

/-- max(x, 0). -/
def relu (hb : S_.BroadcastsInDim s (![] : Fin 0 → Fin s.rank)) (x : FVec Ideal s .f32) : FVec Ideal s .f32 :=
  maximumf x (fill hb 0x00000000#32)

/-- max(x, 0) + 1 · expm1(min(x, 0) / 1). -/
def celu (hb : S_.BroadcastsInDim s (![] : Fin 0 → Fin s.rank)) (x : FVec Ideal s .f32) : FVec Ideal s .f32 :=
  addf (relu hb x) (mulf (fill hb 0x3F800000#32) (Host.expm1 (Host.divf (minimumf x (fill hb 0x00000000#32)) (fill hb 0x3F800000#32))))

/-- y + b, the vector b repeated along the rows. -/
def bias (b1 : sb.BroadcastsInDim sb1 d1) (b2 : sb1.BroadcastsInDim so d2) (y : FVec Ideal so .f32) (b : FVec Ideal sb .f32) :
    FVec Ideal so .f32 :=
  addf y (broadcastInDim so d2 b2 (broadcastInDim sb1 d1 b1 b))

/-- x · wᵀ + b. -/
def lin (d : DotDims s swT so) (t : sw.Transposes p swT) (b1 : sb.BroadcastsInDim sb1 d1) (b2 : sb1.BroadcastsInDim so d2)
    (x : FVec Ideal s .f32) (w : FVec Ideal sw .f32) (b : FVec Ideal sb .f32) : FVec Ideal so .f32 :=
  bias b1 b2 (Host.dotGeneral (F := Ideal) d none x (transpose swT p w t)) b

def fc1 := lin dot_S1024x3072_S3072x512_S1024x512_1_0_0_1_n_n transposes_S512x3072_S3072x512_1_0 bcast_S512_S1x512_1 bcast_S1x512_S1024x512_0_1
def fc2 := lin dot_S1024x512_S512x256_S1024x256_1_0_0_1_n_n transposes_S256x512_S512x256_1_0 bcast_S256_S1x256_1 bcast_S1x256_S1024x256_0_1
def fc3 := lin dot_S1024x256_S256x32_S1024x32_1_0_0_1_n_n transposes_S32x256_S256x32_1_0 bcast_S32_S1x32_1 bcast_S1x32_S1024x32_0_1
def enc2 := lin dot_S1024x256_S256x128_S1024x128_1_0_0_1_n_n transposes_S128x256_S256x128_1_0 bcast_S128_S1x128_1 bcast_S1x128_S1024x128_0_1
def enc3 := lin dot_S1024x128_S128x64_S1024x64_1_0_0_1_n_n transposes_S64x128_S128x64_1_0 bcast_S64_S1x64_1 bcast_S1x64_S1024x64_0_1
def enc4 := lin dot_S1024x64_S64x32_S1024x32_1_0_0_1_n_n transposes_S32x64_S64x32_1_0 bcast_S32_S1x32_1 bcast_S1x32_S1024x32_0_1
def cls := lin dot_S1024x32_S32x64_S1024x64_1_0_0_1_n_n transposes_S64x32_S32x64_1_0 bcast_S64_S1x64_1 bcast_S1x64_S1024x64_0_1

/-- fc1, relu, fc2, relu, fc3 on the pooled graph features. -/
def gfeat (pooled : FVec Ideal S1024x3072 .f32)
    (a7 : FVec Ideal S512x3072 .f32) (a8 : FVec Ideal S512 .f32)
    (a9 : FVec Ideal S256x512 .f32) (a10 : FVec Ideal S256 .f32)
    (a11 : FVec Ideal S32x256 .f32) (a12 : FVec Ideal S32 .f32) : FVec Ideal S1024x32 .f32 :=
  fc3 (relu bcast_S_S1024x256 (fc2 (relu bcast_S_S1024x512 (fc1 pooled a7 a8)) a9 a10)) a11 a12

/-- The product of the five transposed decoder matrices. -/
def dec (a23 : FVec Ideal S64x64 .f32) (a24 : FVec Ideal S128x64 .f32) (a25 : FVec Ideal S256x128 .f32)
    (a26 : FVec Ideal S512x256 .f32) (a27 : FVec Ideal S20000x512 .f32) : FVec Ideal S64x20000 .f32 :=
  Host.dotGeneral (F := Ideal) dot_S64x512_S512x20000_S64x20000_1_0_0_1_n_n none
    (Host.dotGeneral (F := Ideal) dot_S64x256_S256x512_S64x512_1_0_0_1_n_n none
      (Host.dotGeneral (F := Ideal) dot_S64x128_S128x256_S64x256_1_0_0_1_n_n none
        (Host.dotGeneral (F := Ideal) dot_S64x64_S64x128_S64x128_1_0_0_1_n_n none
          (transpose S64x64 [1, 0] a23 transposes_S64x64_S64x64_1_0)
          (transpose S64x128 [1, 0] a24 transposes_S128x64_S64x128_1_0))
        (transpose S128x256 [1, 0] a25 transposes_S256x128_S128x256_1_0))
      (transpose S256x512 [1, 0] a26 transposes_S512x256_S256x512_1_0))
    (transpose S512x20000 [1, 0] a27 transposes_S20000x512_S512x20000_1_0)

/-- min(hi, max(lo, x)) with scalar bounds. -/
def clip (lo hi : FVec Ideal S_ .f32) (x : FVec Ideal S64x20000 .f32) : FVec Ideal S64x20000 .f32 :=
  minimumf (broadcastInDim S64x20000 ![] bcast_S_S64x20000 (id hi)) (maximumf (broadcastInDim S64x20000 ![] bcast_S_S64x20000 (id lo)) x)

/-- The decoder product clipped to [0, 1]. -/
def sigm (a23 : FVec Ideal S64x64 .f32) (a24 : FVec Ideal S128x64 .f32) (a25 : FVec Ideal S256x128 .f32)
    (a26 : FVec Ideal S512x256 .f32) (a27 : FVec Ideal S20000x512 .f32) : FVec Ideal S64x20000 .f32 :=
  clip (constant (F := Ideal) S_ .f32 0x00000000#32) (constant (F := Ideal) S_ .f32 0x3F800000#32) (dec a23 a24 a25 a26 a27)

/-- The encoder after its first product, up to its last celu. -/
def nfeat' (h0 : FVec Ideal S1024x512 .f32) (a14 : FVec Ideal S512 .f32)
    (a15 : FVec Ideal S256x512 .f32) (a16 : FVec Ideal S256 .f32)
    (a17 : FVec Ideal S128x256 .f32) (a18 : FVec Ideal S128 .f32)
    (a19 : FVec Ideal S64x128 .f32) (a20 : FVec Ideal S64 .f32) : FVec Ideal S1024x64 .f32 :=
  celu bcast_S_S1024x64 (enc3 (celu bcast_S_S1024x128 (enc2 (celu bcast_S_S1024x256 (fc2 (celu bcast_S_S1024x512
    (bias bcast_S512_S1x512_1 bcast_S1x512_S1024x512_0_1 h0 a14)) a15 a16)) a17 a18)) a19 a20)

/-- The encoder after its first product: bias, then four (celu, linear) layers. -/
def nfeat (h0 : FVec Ideal S1024x512 .f32) (a14 : FVec Ideal S512 .f32)
    (a15 : FVec Ideal S256x512 .f32) (a16 : FVec Ideal S256 .f32)
    (a17 : FVec Ideal S128x256 .f32) (a18 : FVec Ideal S128 .f32)
    (a19 : FVec Ideal S64x128 .f32) (a20 : FVec Ideal S64 .f32)
    (a21 : FVec Ideal S32x64 .f32) (a22 : FVec Ideal S32 .f32) : FVec Ideal S1024x32 .f32 :=
  enc4 (nfeat' h0 a14 a15 a16 a17 a18 a19 a20) a21 a22

/-- The mean of the two feature vectors, the linear layer to 64 classes, and its row softmax. -/
def zed (gf nf : FVec Ideal S1024x32 .f32) (a28 : FVec Ideal S64x32 .f32) (a29 : FVec Ideal S64 .f32) :
    FVec Ideal S1024x64 .f32 :=
  have v121 : FVec Ideal S1024x64 .f32 :=
    cls (addf (mulf (fill bcast_S_S1024x32 0x3F000000#32) nf) (mulf (fill bcast_S_S1024x32 0x3F000000#32) gf)) a28 a29
  have v128 : FVec Ideal S1024x64 .f32 :=
    Host.exp (subf v121 (broadcastInDim S1024x64 ![0, 1] bcast_S1024x1_S1024x64_0_1 (broadcastInDim S1024x1 ![0] bcast_S1024_S1024x1_0
      (maximumf (fill bcast_S_S1024 0xFF800000#32)
        (Host.reduce (FloatOps.maximumf (F := Ideal)) v121 (constant (F := Ideal) S_ .f32 0xFF800000#32) reducesTo_S1024x64_S1024_d1 h_S_)))))
  Host.divf v128
    (broadcastInDim S1024x64 ![0, 1] bcast_S1024x1_S1024x64_0_1
      (broadcastInDim S1024x1 ![0] bcast_S1024_S1024x1_0
        (Host.reduceAdd v128 (constant (F := Ideal) S_ .f32 0x00000000#32) reducesTo_S1024x64_S1024_d1 h_S_)))

/-- The reconstruction z · sig. -/
def recon (z : FVec Ideal S1024x64 .f32) (sg : FVec Ideal S64x20000 .f32) : FVec Ideal S1024x20000 .f32 :=
  Host.dotGeneral (F := Ideal) dot_S1024x64_S64x20000_S1024x20000_1_0_0_1_n_n none z sg

end Cert.SpecT

end
-- ==== Proof.SpecP.lean ====
import proofs.«415579_j11768210391563_2_alg».proof.KernelIdeal
import proofs.«415579_j11768210391563_2_alg».proof.ReferenceIdeal
import Idealize.ShloMosaic.PureOps.Ideal

noncomputable section

namespace Cert.SpecP

open Idealize.ShloMosaic

section K
open Cert.KernelIdeal Cert.KernelIdeal.Facts₀
variable [Cert.KernelIdeal.Facts₀]

def wcolK0 (w : FVec Ideal S3x3 .f32) : FVec Ideal S3 .f32 :=
  shapeCast _ (extractStridedSlice S3x1 ![0, 0] w slices_S3x3_S3x1_0_0) shapeCasts_S3x1_S3

def wcolK1 (w : FVec Ideal S3x3 .f32) : FVec Ideal S3 .f32 :=
  shapeCast _ (extractStridedSlice S3x1 ![0, 1] w slices_S3x3_S3x1_0_1) shapeCasts_S3x1_S3

def wcolK2 (w : FVec Ideal S3x3 .f32) : FVec Ideal S3 .f32 :=
  shapeCast _ (extractStridedSlice S3x1 ![0, 2] w slices_S3x3_S3x1_0_2) shapeCasts_S3x1_S3

def bcX (x : FVec Ideal S8192x1024 .f32) : FVec Ideal S8192x1024x3 .f32 :=
  broadcastInDim S8192x1024x3 ![0, 1, 2] bcast_S8192x1024x1_S8192x1024x3_0_1_2
    (broadcastInDim S8192x1024x1 ![0, 1] bcast_S8192x1024_S8192x1024x1_0_1 x)

def bcW (u : FVec Ideal S3 .f32) : FVec Ideal S8192x1024x3 .f32 :=
  broadcastInDim S8192x1024x3 ![0, 1, 2] bcast_S1x1x3_S8192x1024x3_0_1_2
    (broadcastInDim S1x1x3 ![2] bcast_S3_S1x1x3_2 u)

def combK (x0 x1 x2 : FVec Ideal S8192x1024 .f32) (w : FVec Ideal S3x3 .f32) (b : FVec Ideal S3 .f32) :
    FVec Ideal S8192x1024x3 .f32 :=
  addf (addf (addf (mulf (bcX x0) (bcW (wcolK0 w))) (mulf (bcX x1) (bcW (wcolK1 w))))
    (mulf (bcX x2) (bcW (wcolK2 w)))) (bcW b)

def reluK (y : FVec Ideal S8192x1024x3 .f32) : FVec Ideal S8192x1024x3 .f32 :=
  maximumf y (broadcastInDim S8192x1024x3 ![] bcast_S_S8192x1024x3 (constant (F := Ideal) S_ .f32 0x00000000#32))

def maxK (y : FVec Ideal S8192x1024x3 .f32) : FVec Ideal S1024x3072 .f32 :=
  shapeCast _
    (transpose S1024x1024x3 [1, 0, 2]
      (Host.reduce (FloatOps.maximumf (F := Ideal) (φ := .f32))
        (shapeCast _ y shapeCasts_S8192x1024x3_S1024x8x1024x3)
        (constant (F := Ideal) S_ .f32 0xFF800000#32) reducesTo_S1024x8x1024x3_S1024x1024x3_d1 h_S_)
      transposes_S1024x1024x3_S1024x1024x3_1_0_2)
    shapeCasts_S1024x1024x3_S1024x3072

def poolK (x0 x1 x2 : FVec Ideal S8192x1024 .f32) (w : FVec Ideal S3x3 .f32) (b : FVec Ideal S3 .f32) :
    FVec Ideal S1024x3072 .f32 :=
  maxK (reluK (combK x0 x1 x2 w b))

end K

section R
open Cert.ReferenceIdeal Cert.ReferenceIdeal.Facts₀
variable [Cert.ReferenceIdeal.Facts₀]

def stackR (x0 x1 x2 : FVec Ideal S8192x1024 .f32) : FVec Ideal S8388608x3 .f32 :=
  shapeCast _
    (transpose S1024x8192x3 [2, 1, 0]
      (concatenate S3x8192x1024 0
        [⟨S1x8192x1024, (broadcastInDim S1x8192x1024 ![1, 2] bcast_S8192x1024_S1x8192x1024_1_2 x0)⟩,
         ⟨S1x8192x1024, (broadcastInDim S1x8192x1024 ![1, 2] bcast_S8192x1024_S1x8192x1024_1_2 x1)⟩,
         ⟨S1x8192x1024, (broadcastInDim S1x8192x1024 ![1, 2] bcast_S8192x1024_S1x8192x1024_1_2 x2)⟩]
        concatenates_S1x8192x1024_S1x8192x1024_S1x8192x1024_S3x8192x1024_d0)
      transposes_S3x8192x1024_S1024x8192x3_2_1_0)
    shapeCasts_S1024x8192x3_S8388608x3

def combR (x0 x1 x2 : FVec Ideal S8192x1024 .f32) (w : FVec Ideal S3x3 .f32) (b : FVec Ideal S3 .f32) :
    FVec Ideal S1024x8192x3 .f32 :=
  shapeCast _
    (addf
      (Host.dotGeneral dot_S8388608x3_S3x3_S8388608x3_1_0_0_1_n_n none (stackR x0 x1 x2)
        (transpose S3x3 [1, 0] w transposes_S3x3_S3x3_1_0))
      (broadcastInDim S8388608x3 ![0, 1] bcast_S1x3_S8388608x3_0_1 (broadcastInDim S1x3 ![1] bcast_S3_S1x3_1 b)))
    shapeCasts_S8388608x3_S1024x8192x3

def reluR (y : FVec Ideal S1024x8192x3 .f32) : FVec Ideal S1024x8192x3 .f32 :=
  maximumf y (broadcastInDim S1024x8192x3 ![] bcast_S_S1024x8192x3 (constant (F := Ideal) S_ .f32 0x00000000#32))

def maxR (y : FVec Ideal S1024x8192x3 .f32) : FVec Ideal S1024x3072 .f32 :=
  shapeCast _
    (Host.reduce (FloatOps.maximumf (F := Ideal) (φ := .f32))
      (shapeCast _ y shapeCasts_S1024x8192x3_S1024x1024x8x3)
      (constant (F := Ideal) S_ .f32 0xFF800000#32) reducesTo_S1024x1024x8x3_S1024x1024x3_d2 h_S_)
    shapeCasts_S1024x1024x3_S1024x3072

def poolR (x0 x1 x2 : FVec Ideal S8192x1024 .f32) (w : FVec Ideal S3x3 .f32) (b : FVec Ideal S3 .f32) :
    FVec Ideal S1024x3072 .f32 :=
  maxR (reluR (combR x0 x1 x2 w b))

end R

end Cert.SpecP
-- ==== Proof.SpecX.lean ====
import proofs.«415579_j11768210391563_2_alg».proof.KernelIdeal
import proofs.«415579_j11768210391563_2_alg».proof.ReferenceIdeal
import Idealize.ShloMosaic.PureOps.Ideal

noncomputable section

namespace Cert.SpecX

open Idealize.ShloMosaic

section Kernel
open Cert.KernelIdeal Cert.KernelIdeal.Facts₀
variable [Cert.KernelIdeal.Facts₀]

/-- The negative-index wrap: w + 8192 where w < 0 (signed), else w. -/
def normIdx (w : IVec S262144 32) : IVec S262144 32 :=
  select (cmpi .slt w (broadcastInDim S262144 ![] bcast_S_S262144 (constantI S_ 32 0#32)))
    (addi w (broadcastInDim S262144 ![] bcast_S_S262144 (constantI S_ 32 8192#32))) w

/-- The [E, 2] array of wrapped (row, column) pairs. -/
def pairs (rows cols : IVec S262144 32) : IVec S262144x2 32 :=
  concatenate S262144x2 1 [⟨S262144x1, broadcastInDim S262144x1 ![0] bcast_S262144_S262144x1_0 (normIdx rows)⟩, ⟨S262144x1, broadcastInDim S262144x1 ![0] bcast_S262144_S262144x1_0 (normIdx cols)⟩] concatenates_S262144x1_S262144x1_S262144x2_d1

/-- The densified operator: zeros[8192, 8192] with each value added at its (row, column). -/
def Ldense (rows cols : IVec S262144 32) (vals : FVec Ideal S262144 .f32) : FVec Ideal S8192x8192 .f32 :=
  Host.scatterAdd scatter_S8192x8192_S262144x2_S262144_n_01_01_1 (broadcastInDim S8192x8192 ![] bcast_S_S8192x8192 (constant (F := Ideal) S_ .f32 0x00000000#32)) (pairs rows cols) vals

def Lk (rows cols : IVec S262144 32) (vals : FVec Ideal S262144 .f32) : FVec Ideal S8192x8192 .bf16 :=
  truncf .bf16 (Ldense rows cols vals) bitsLt_bf16_f32

/-- x0: the graph input transposed to [8192, 1024]. -/
def x0T (xg : FVec Ideal S1024x8192 .f32) : FVec Ideal S8192x1024 .f32 :=
  transpose S8192x1024 [1, 0] xg transposes_S1024x8192_S8192x1024_1_0

def x0bf (xg : FVec Ideal S1024x8192 .f32) : FVec Ideal S8192x1024 .bf16 :=
  truncf .bf16 (x0T xg) bitsLt_bf16_f32

def bf (x : FVec Ideal S8192x1024 .f32) : FVec Ideal S8192x1024 .bf16 :=
  truncf .bf16 x bitsLt_bf16_f32

end Kernel

section Reference
open Cert.ReferenceIdeal Cert.ReferenceIdeal.Facts₀
variable [Cert.ReferenceIdeal.Facts₀]

def normIdxR (w : IVec S262144 32) : IVec S262144 32 :=
  select (cmpi .slt w (broadcastInDim S262144 ![] bcast_S_S262144 (constantI S_ 32 0#32)))
    (addi w (broadcastInDim S262144 ![] bcast_S_S262144 (constantI S_ 32 8192#32))) w

def x0R (xg : FVec Ideal S1024x8192 .f32) : FVec Ideal S8192x1024 .f32 :=
  transpose S8192x1024 [1, 0] xg transposes_S1024x8192_S8192x1024_1_0

/-- One sparse product: gather row cols[e] of x, scale it by vals[e], add it into row rows[e] of zeros. -/
def spmmR (rows cols : IVec S262144 32) (vals : FVec Ideal S262144 .f32) (x : FVec Ideal S8192x1024 .f32) :
    FVec Ideal S8192x1024 .f32 :=
  Host.scatterAdd scatter_S8192x1024_S262144x1_S262144x1024_1_0_0_1 (broadcastInDim S8192x1024 ![] bcast_S_S8192x1024 (constant (F := Ideal) S_ .f32 0x00000000#32)) (broadcastInDim S262144x1 ![0] bcast_S262144_S262144x1_0 rows) (mulf (broadcastInDim S262144x1024 ![0, 1] bcast_S262144x1_S262144x1024_0_1 (broadcastInDim S262144x1 ![0] bcast_S262144_S262144x1_0 vals)) (Host.gather gather_S8192x1024_S262144x1_S262144x1024_1_0_n_n_0_1_11024 x (broadcastInDim S262144x1 ![0] bcast_S262144_S262144x1_0 (normIdxR cols))))

/-- x1 = L x0. -/
def x1R (rows cols : IVec S262144 32) (vals : FVec Ideal S262144 .f32) (xg : FVec Ideal S1024x8192 .f32) :
    FVec Ideal S8192x1024 .f32 :=
  spmmR rows cols vals (x0R xg)

/-- x2 = 2 (L x1) - x0. -/
def x2R (rows cols : IVec S262144 32) (vals : FVec Ideal S262144 .f32) (xg : FVec Ideal S1024x8192 .f32) :
    FVec Ideal S8192x1024 .f32 :=
  subf (mulf (broadcastInDim S8192x1024 ![] bcast_S_S8192x1024 (constant (F := Ideal) S_ .f32 0x40000000#32)) (spmmR rows cols vals (x1R rows cols vals xg))) (x0R xg)

end Reference

end Cert.SpecX

end
-- ==== Proof.RefTail.lean ====
import proofs.«415579_j11768210391563_2_alg».proof.Proof.SpecT
import proofs.«415579_j11768210391563_2_alg».proof.Proof.SpecP
import proofs.«415579_j11768210391563_2_alg».proof.Proof.SpecX
import proofs.«415579_j11768210391563_2_alg».proof.ReferenceIdeal
import proofs.«415579_j11768210391563_2_alg».proof.Proof.Gen.ReferenceIdeal.Run

noncomputable section

namespace Cert.RefTail

open Cert.ReferenceIdeal Cert.ReferenceIdeal.Gen Idealize.ShloMosaic Idealize.ShloMosaic.TcCoe Idealize.SL.Sem Idealize.ShloMosaic.StableHlo

/-- The reference's pooled graph features: its combine-and-pool of x0, x1 = L x0 and x2 = 2 L x1 − x0. -/
def poolRm (m : (ℓ : Loc nD τ sig) → Buf (Elt Ideal) ℓ) (c : Dev nD) : FVec Ideal S1024x3072 .f32 :=
  Cert.SpecP.poolR (Cert.SpecX.x0T (m ((c.tc : Thread nD τ).loc main_arg0))) (Cert.SpecX.x1R (m ((c.tc : Thread nD τ).loc main_arg2)) (m ((c.tc : Thread nD τ).loc main_arg3)) (m ((c.tc : Thread nD τ).loc main_arg4)) (m ((c.tc : Thread nD τ).loc main_arg0)))
          (Cert.SpecX.x2R (m ((c.tc : Thread nD τ).loc main_arg2)) (m ((c.tc : Thread nD τ).loc main_arg3)) (m ((c.tc : Thread nD τ).loc main_arg4)) (m ((c.tc : Thread nD τ).loc main_arg0))) (m ((c.tc : Thread nD τ).loc main_arg5)) (m ((c.tc : Thread nD τ).loc main_arg6))

/-- The reference's first encoder product x_nn · enc0_wᵀ. -/
def h0Rm {F : FTy → Type} [FloatOps F] (m : (ℓ : Loc nD τ sig) → Buf (Elt F) ℓ) (c : Dev nD) : FVec F S1024x512 .f32 :=
  Host.dotGeneral dot_S1024x20000_S20000x512_S1024x512_1_0_0_1_n_n none (m ((c.tc : Thread nD τ).loc main_arg1)) (transpose S20000x512 [1, 0] (m ((c.tc : Thread nD τ).loc main_arg13)) transposes_S512x20000_S20000x512_1_0)

theorem poolRm_eq (m : (ℓ : Loc nD τ sig) → Buf (Elt Ideal) ℓ) (c : Dev nD) :
    poolRm m c
      = Cert.SpecP.poolR (Cert.SpecX.x0T (m ((c.tc : Thread nD τ).loc main_arg0))) (Cert.SpecX.x1R (m ((c.tc : Thread nD τ).loc main_arg2)) (m ((c.tc : Thread nD τ).loc main_arg3)) (m ((c.tc : Thread nD τ).loc main_arg4)) (m ((c.tc : Thread nD τ).loc main_arg0)))
          (Cert.SpecX.x2R (m ((c.tc : Thread nD τ).loc main_arg2)) (m ((c.tc : Thread nD τ).loc main_arg3)) (m ((c.tc : Thread nD τ).loc main_arg4)) (m ((c.tc : Thread nD τ).loc main_arg0))) (m ((c.tc : Thread nD τ).loc main_arg5)) (m ((c.tc : Thread nD τ).loc main_arg6)) := rfl

/-- The mixing head's softmax on the feature chains of the reference's two intermediate arrays. -/
def zR (m : (ℓ : Loc nD τ sig) → Buf (Elt Ideal) ℓ) (c : Dev nD) :=
  Cert.SpecT.zed (Cert.SpecT.gfeat (poolRm m c) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
    (Cert.SpecT.nfeat (h0Rm m c) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
    (m ((c.tc : Thread nD τ).loc main_arg28)) (m ((c.tc : Thread nD τ).loc main_arg29))

set_option maxRecDepth 8192 in
set_option maxHeartbeats 4000000 in
/-- The reference spells every shared value out at each use; the shared functions bind it once: equal by unfolding. -/
theorem ref_z (m : (ℓ : Loc nD τ sig) → Buf (Elt Ideal) ℓ) (c : Dev nD) : Cert.ReferenceIdeal.Value.res_main_v122 (F := Ideal) m c = zR m c := by
  unfold Cert.ReferenceIdeal.Value.res_main_v122
  rfl

set_option maxRecDepth 8192 in
set_option maxHeartbeats 4000000 in
theorem ref_recon (m : (ℓ : Loc nD τ sig) → Buf (Elt Ideal) ℓ) (c : Dev nD) : Cert.ReferenceIdeal.Value.res_main_v123 (F := Ideal) m c
    = Cert.SpecT.recon (zR m c) (Cert.SpecT.sigm (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  unfold Cert.ReferenceIdeal.Value.res_main_v123
  rfl

set_option maxRecDepth 8192 in
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v123)
          = Cert.SpecT.recon (Cert.SpecT.zed (Cert.SpecT.gfeat (poolRm m c) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
        (Cert.SpecT.nfeat (h0Rm m c) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
        (m ((c.tc : Thread nD τ).loc main_arg28)) (m ((c.tc : Thread nD τ).loc main_arg29)))
              (Cert.SpecT.sigm (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
      ∧ r.2.mem ((c.tc : Thread nD τ).loc main_v122)
          = Cert.SpecT.zed (Cert.SpecT.gfeat (poolRm m c) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
        (Cert.SpecT.nfeat (h0Rm m c) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
        (m ((c.tc : Thread nD τ).loc main_arg28)) (m ((c.tc : Thread nD τ).loc main_arg29))
      ∧ r.2.mem ((c.tc : Thread nD τ).loc main_v72) = Cert.SpecT.sigm (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono
    (fun _ h c => ⟨(h c).1.trans (ref_recon m c), (h c).2.1.trans (ref_z m c),
      (h c).2.2.1, (h c).2.2.2⟩)
    (Cert.ReferenceIdeal.Value.run (F := Ideal) m ρ)

end Cert.RefTail

end
-- ==== Proof.PreFacts.lean ====
import proofs.«415579_j11768210391563_2_alg».proof.Pre_finite_inputs
import Idealize.ShloMosaic.Lib.ReduceAll
import Idealize.ShloMosaic.PureOps.Ideal

namespace Cert.PreFacts

open Idealize.ShloMosaic Cert.Pre_finite_inputs

variable [Facts]

instance : Subsingleton S_.Idx := ⟨fun _ _ => funext fun d => d.elim0⟩

/-- Of the extended reals only the real numbers have |x| < +∞, since |−∞| = |+∞| = +∞. -/
theorem real_of_abs_lt (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  have h' : Ideal.cmp .olt (max x (-x)) (Ideal.ieee 8 23 0x7F800000#32) = 1#1 := h
  induction x using EReal.rec with
  | coe r => exact ⟨r, rfl⟩
  | _ => simp [Ideal.cmp, Ideal.ieee] at h'

/-- A signed word tested ≥ 0 and < 8192 reads in [0, 8192). -/
theorem in_range {w : BitVec 32} (h0 : IntOp.cmpi .sge w 0#32 = 1#1) (h1 : IntOp.cmpi .slt w 8192#32 = 1#1) :
    0 ≤ w.toInt ∧ w.toInt < 8192 :=
  ⟨IntOp.cmpi_sge.1 h0, IntOp.cmpi_slt.1 h1⟩

/-- The predicate is a left-nested conjunction of 32 tests: the 1st and 3rd are |x| < +∞ on a0 and a4, the last four the ranges of a2 and a3. -/
theorem decode {a0 a1 a2 a3 a4 a5 a6 a7 a8 a9 a10 a11 a12 a13 a14 a15 a16 a17 a18 a19 a20 a21 a22 a23 a24 a25 a26 a27 a28 a29}
    (h : fn (F := Ideal) a0 a1 a2 a3 a4 a5 a6 a7 a8 a9 a10 a11 a12 a13 a14 a15 a16 a17 a18 a19 a20 a21 a22 a23 a24 a25 a26 a27 a28 a29 = fun _ => 1#1) :
    (∀ i, ∃ r : ℝ, a0 i = (r : EReal)) ∧ (∀ i, ∃ r : ℝ, a4 i = (r : EReal))
      ∧ (∀ i, 0 ≤ (a2 i).toInt ∧ (a2 i).toInt < 8192) ∧ (∀ i, 0 ≤ (a3 i).toInt ∧ (a3 i).toInt < 8192) := by
  obtain ⟨h, r32⟩ := IntOp.andi_eq_one.1 (congrFun h fun d => d.elim0)
  obtain ⟨h, r31⟩ := IntOp.andi_eq_one.1 h
  obtain ⟨h, r30⟩ := IntOp.andi_eq_one.1 h
  obtain ⟨h, r29⟩ := IntOp.andi_eq_one.1 h
  iterate 25 replace h := (IntOp.andi_eq_one.1 h).1
  obtain ⟨h, r3⟩ := IntOp.andi_eq_one.1 h
  exact ⟨fun i => real_of_abs_lt _ (Host.reduce_andi_all _ _ _ _ _ (IntOp.andi_eq_one.1 h).1 i),
    fun i => real_of_abs_lt _ (Host.reduce_andi_all _ _ _ _ _ r3 i),
    fun i => in_range (Host.reduce_andi_all _ _ _ _ _ r29 i) (Host.reduce_andi_all _ _ _ _ _ r30 i),
    fun i => in_range (Host.reduce_andi_all _ _ _ _ _ r31 i) (Host.reduce_andi_all _ _ _ _ _ r32 i)⟩

end Cert.PreFacts
-- ==== Proof.PreFactsM.lean ====
import proofs.«415579_j11768210391563_2_alg».proof.Defs
import proofs.«415579_j11768210391563_2_alg».proof.Proof.PreFacts

namespace Cert.PreFacts

open Idealize.ShloMosaic Idealize.SL.Sem

theorem of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg4)) i = (r : EReal))
      ∧ (∀ i, 0 ≤ ((m ((c.tc : Thread Cert.KernelIdeal.nD Cert.KernelIdeal.τ).loc Cert.KernelIdeal.main_arg2)) i).toInt ∧ ((m ((c.tc : Thread Cert.KernelIdeal.nD Cert.KernelIdeal.τ).loc Cert.KernelIdeal.main_arg2)) i).toInt < 8192)
      ∧ (∀ i, 0 ≤ ((m ((c.tc : Thread Cert.KernelIdeal.nD Cert.KernelIdeal.τ).loc Cert.KernelIdeal.main_arg3)) i).toInt ∧ ((m ((c.tc : Thread Cert.KernelIdeal.nD Cert.KernelIdeal.τ).loc Cert.KernelIdeal.main_arg3)) i).toInt < 8192) :=
  decode (h c)

end Cert.PreFacts
-- ==== Proof.BridgeP.lean ====
import proofs.«415579_j11768210391563_2_alg».proof.Proof.SpecP
import Idealize.ShloMosaic.Lib.ValueLayout
import Idealize.ShloMosaic.Lib.StackMember
import Idealize.ShloMosaic.Lib.IdealHost

noncomputable section

namespace Cert.BridgeP

open Idealize.ShloMosaic Idealize.ShloMosaic.ValueIdx Cert.SpecP

variable (x0 x1 x2 : FVec Ideal ⟨2, ![8192, 1024]⟩ .f32) (w : FVec Ideal ⟨2, ![3, 3]⟩ .f32) (b : FVec Ideal ⟨1, ![3]⟩ .f32)
  (v : Fin 8192) (bb : Fin 1024) (f : Fin 3) (col : Fin 3072)

/-- relu of the affine combination of the three terms at node `v`, batch `bb`, for filter `f`. -/
def cell : Ideal .f32 :=
  max (x0 (ix2 v bb) * w (ix2 f (0 : Fin 3)) + x1 (ix2 v bb) * w (ix2 f (1 : Fin 3)) + x2 (ix2 v bb) * w (ix2 f (2 : Fin 3)) + b (ix1 f))
    (Ideal.ofBits .f32 0x00000000#32)

def poolOf : Fin 1024 := ⟨col.val / 3, by have := col.isLt; omega⟩
def filtOf : Fin 3 := ⟨col.val % 3, by omega⟩
def nodeOf (vp : Fin 1024) (p : Fin 8) : Fin 8192 := ⟨8 * vp.val + p.val, by have := vp.isLt; have := p.isLt; omega⟩

/-- The maximum from −∞ of the cells of the eight nodes of the column's pool, for the column's filter. -/
abbrev pooled : Ideal .f32 :=
  (Finset.univ : Finset (Fin 8)).fold max (Ideal.ofBits .f32 0xFF800000#32) fun p => cell x0 x1 x2 w b (nodeOf (poolOf col) p) bb (filtOf col)

/-- relu is the maximum with the zero splat, at any shape. -/
theorem relu_apply {s : Shape} (h : (⟨0, ![]⟩ : Shape).BroadcastsInDim s ![]) (y : FVec Ideal s .f32) (i : s.Idx) :
    maximumf y (broadcastInDim s ![] h (constant (F := Ideal) ⟨0, ![]⟩ .f32 0x00000000#32)) i = max (y i) (Ideal.ofBits .f32 0x00000000#32) :=
  congrArg (max (y i)) (broadcastInDim_scalar_apply h _ i)

/-- Flat column `col` of [1024, 3072] is (pool, filter) = (col / 3, col mod 3) of [1024, 1024, 3]. -/
theorem unflat_apply (z : FVec Ideal ⟨3, ![1024, 1024, 3]⟩ .f32) (h : (⟨3, ![1024, 1024, 3]⟩ : Shape).ShapeCasts ⟨2, ![1024, 3072]⟩) :
    shapeCast _ z h (ix2 bb col) = z (ix3 bb (poolOf col) (filtOf col)) :=
  shapeCast_apply z h _ _ (by
    rw [Shape.rowMajor_val_three, Shape.rowMajor_val_two]
    have := col.isLt
    show (bb.val * 1024 + col.val / 3) * 3 + col.val % 3 = bb.val * 3072 + col.val
    omega)

section K
open Cert.KernelIdeal Cert.KernelIdeal.Facts₀
variable [Cert.KernelIdeal.Facts₀]

/-- Column `o` of the filter matrix, sliced out and flattened, read at `f`. -/
theorem col_apply (o : Nat) (ho : o < 3) (h : S3x3.Slices ![0, o] S3x1) :
    shapeCast S3 (extractStridedSlice S3x1 ![0, o] w h) shapeCasts_S3x1_S3 (ix1 f) = w (ix2 f ⟨o, ho⟩) :=
  (shapeCast_apply _ _ _ (ix2 f (0 : Fin 1)) (by
    rw [Shape.rowMajor_val_two, Shape.rowMajor_val_one]; show f.val * 1 + 0 = f.val; omega)).trans
    (slice2_axis1_apply o w h f 0 ⟨o, ho⟩ rfl)

theorem bcX_apply (x : FVec Ideal S8192x1024 .f32) : bcX x (ix3 v bb f) = x (ix2 v bb) :=
  (broadcastInDim_apply _ bcast_S8192x1024x1_S8192x1024x3_0_1_2 _ _ (ix3 v bb (0 : Fin 1)) fun a => match a with
    | ⟨0, _⟩ | ⟨1, _⟩ | ⟨2, _⟩ => rfl).trans
  (broadcastInDim_apply _ bcast_S8192x1024_S8192x1024x1_0_1 x _ (ix2 v bb) fun a => match a with
    | ⟨0, _⟩ | ⟨1, _⟩ => rfl)

theorem bcW_apply (u : FVec Ideal S3 .f32) : bcW u (ix3 v bb f) = u (ix1 f) :=
  (broadcastInDim_apply _ bcast_S1x1x3_S8192x1024x3_0_1_2 _ _ (ix3 (0 : Fin 1) (0 : Fin 1) f) fun a => match a with
    | ⟨0, _⟩ | ⟨1, _⟩ | ⟨2, _⟩ => rfl).trans
  (broadcastInDim_apply _ bcast_S3_S1x1x3_2 u _ (ix1 f) fun a => match a with
    | ⟨0, _⟩ => rfl)

theorem cellK : reluK (combK x0 x1 x2 w b) (ix3 v bb f) = cell x0 x1 x2 w b v bb f := by
  refine (relu_apply _ _ _).trans (congrArg (max · _) ?_)
  unfold combK wcolK0 wcolK1 wcolK2
  simp only [addf_apply, mulf_apply, bcX_apply, bcW_apply]
  rw [col_apply w f 0 (by decide), col_apply w f 1 (by decide), col_apply w f 2 (by decide)]
  rfl

theorem poolK_apply : poolK x0 x1 x2 w b (ix2 bb col) = pooled x0 x1 x2 w b bb col :=
  (unflat_apply bb col _ _).trans
  ((transpose_apply [1, 0, 2] _ transposes_S1024x1024x3_S1024x1024x3_1_0_2 (ix3 bb (poolOf col) (filtOf col))
    (ix3 (poolOf col) bb (filtOf col)) fun a => match a with
    | ⟨0, _⟩ | ⟨1, _⟩ | ⟨2, _⟩ => rfl).trans
  ((Host.reduce_eq_fold_single _ _ _ _ (by decide) _ _).trans (congrArg (Finset.fold max _ · _) (funext fun p =>
    (shapeCast_apply _ shapeCasts_S8192x1024x3_S1024x8x1024x3 _ (ix3 (nodeOf (poolOf col) p) bb (filtOf col)) (by
      rw [Shape.rowMajor_val_three, Shape.rowMajor_val_four]
      show ((8 * (col.val / 3) + p.val) * 1024 + bb.val) * 3 + col.val % 3
        = (((col.val / 3) * 8 + p.val) * 1024 + bb.val) * 3 + col.val % 3
      omega)).trans (cellK x0 x1 x2 w b _ bb _)))))

end K

section R
open Cert.ReferenceIdeal Cert.ReferenceIdeal.Facts₀
variable [Cert.ReferenceIdeal.Facts₀]

/-- Row (batch, node) of the stacked, transposed, flattened terms holds, at `k`, term `k` at (node, batch). -/
theorem stackR_apply (k : Fin 3) (hlt : bb.val * 8192 + v.val < 8388608) :
    stackR x0 x1 x2 (ix2 ⟨bb.val * 8192 + v.val, hlt⟩ k) = ![x0, x1, x2] k (ix2 v bb) :=
  (shapeCast_apply _ shapeCasts_S1024x8192x3_S8388608x3 _ (ix3 bb v k) (by
    rw [Shape.rowMajor_val_three, Shape.rowMajor_val_two]; rfl)).trans
  ((transpose_apply [2, 1, 0] _ transposes_S3x8192x1024_S1024x8192x3_2_1_0 _ (ix3 k v bb) fun a => match a with
    | ⟨0, _⟩ | ⟨1, _⟩ | ⟨2, _⟩ => rfl).trans
  ((concatenate_ofFn_unit_apply 0
      (fun n => broadcastInDim S1x8192x1024 ![1, 2] bcast_S8192x1024_S1x8192x1024_1_2 (![x0, x1, x2] n))
      concatenates_S1x8192x1024_S1x8192x1024_S1x8192x1024_S3x8192x1024_d0 rfl rfl _ k rfl (ix3 (0 : Fin 1) v bb) fun a => match a with
    | ⟨0, _⟩ => fun ha => absurd rfl ha
    | ⟨1, _⟩ | ⟨2, _⟩ => fun _ => rfl).trans
  (broadcastInDim_apply _ bcast_S8192x1024_S1x8192x1024_1_2 _ _ (ix2 v bb) fun a => match a with
    | ⟨0, _⟩ | ⟨1, _⟩ => rfl)))

theorem cellR : reluR (combR x0 x1 x2 w b) (ix3 bb v f) = cell x0 x1 x2 w b v bb f := by
  have hlt : bb.val * 8192 + v.val < 8388608 := by have := bb.isLt; have := v.isLt; omega
  refine (relu_apply _ _ _).trans (congrArg (max · _) ((shapeCast_apply _ shapeCasts_S8388608x3_S1024x8192x3 _
    (ix2 ⟨_, hlt⟩ f) (by rw [Shape.rowMajor_val_two, Shape.rowMajor_val_three]; rfl)).trans ?_))
  rw [addf_apply]
  refine (congrArg₂ (· + ·) ((StackMember.dotGeneral_plain_apply none _ _ _ f).trans (Fin.sum_univ_three _))
    ((broadcastInDim_oneRow_apply _ _ _ f).trans (broadcastInDim_apply _ bcast_S3_S1x3_1 b _ (ix1 f) fun a => match a with
      | ⟨0, _⟩ => rfl))).trans ?_
  rw [stackR_apply, stackR_apply, stackR_apply, transpose_ix2_apply, transpose_ix2_apply, transpose_ix2_apply]
  rfl

theorem poolR_apply : poolR x0 x1 x2 w b (ix2 bb col) = pooled x0 x1 x2 w b bb col :=
  (unflat_apply bb col _ _).trans
  ((Host.reduce_eq_fold_single _ _ _ _ (by decide) _ _).trans (congrArg (Finset.fold max _ · _) (funext fun p =>
    (shapeCast_apply _ shapeCasts_S1024x8192x3_S1024x1024x8x3 _ (ix3 bb (nodeOf (poolOf col) p) (filtOf col)) (by
      rw [Shape.rowMajor_val_three, Shape.rowMajor_val_four]
      show (bb.val * 8192 + (8 * (col.val / 3) + p.val)) * 3 + col.val % 3
        = ((bb.val * 1024 + col.val / 3) * 8 + p.val) * 3 + col.val % 3
      omega)).trans (cellR x0 x1 x2 w b _ bb _))))

end R

variable [Cert.KernelIdeal.Facts₀] [Cert.ReferenceIdeal.Facts₀]

/-- Both layouts give, at every (batch, column), the maximum over the column's pool of the cells for the column's filter. -/
theorem pool_eq (x0 x1 x2 : FVec Ideal Cert.KernelIdeal.S8192x1024 .f32) (w : FVec Ideal Cert.KernelIdeal.S3x3 .f32)
    (b : FVec Ideal Cert.KernelIdeal.S3 .f32) : poolK x0 x1 x2 w b = poolR x0 x1 x2 w b := by
  funext i
  obtain ⟨bb, col, rfl⟩ : ∃ (bb : Fin 1024) (col : Fin 3072), i = ix2 bb col := ⟨i 0, i 1, eq_ix2 i⟩
  exact (poolK_apply x0 x1 x2 w b bb col).trans (poolR_apply x0 x1 x2 w b bb col).symm

end Cert.BridgeP
-- ==== Proof.SpecE.lean ====
import proofs.«415579_j11768210391563_2_alg».proof.KernelIdeal
import proofs.«415579_j11768210391563_2_alg».proof.ReferenceIdeal
import Idealize.ShloMosaic.PureOps.Ideal

noncomputable section

namespace Cert.SpecE

open Idealize.ShloMosaic

section K
open Cert.KernelIdeal Cert.KernelIdeal.Facts₀
variable [Cert.KernelIdeal.Facts₀]

def xpadK (xnn : FVec Ideal S1024x20000 .f32) : FVec Ideal S1024x20480 .bf16 :=
  truncf .bf16
    (pad S1024x20480 ![0, 0] ![0, 480] ![0, 0] xnn (sitofp (F := Ideal) .f32 (constantI S_ 32 0#32))
      pads_S1024x20000_S1024x20480_000_04800 h_S_)
    bitsLt_bf16_f32

def wpadK (w : FVec Ideal S512x20000 .f32) : FVec Ideal S20480x512 .bf16 :=
  truncf .bf16
    (transpose S20480x512 [1, 0]
      (pad S512x20480 ![0, 0] ![0, 480] ![0, 0] w (sitofp (F := Ideal) .f32 (constantI S_ 32 0#32))
        pads_S512x20000_S512x20480_000_04800 h_S_)
      transposes_S512x20480_S20480x512_1_0)
    bitsLt_bf16_f32

end K

section R
open Cert.ReferenceIdeal Cert.ReferenceIdeal.Facts₀
variable [Cert.ReferenceIdeal.Facts₀]

def h0R (xnn : FVec Ideal S1024x20000 .f32) (w : FVec Ideal S512x20000 .f32) : FVec Ideal S1024x512 .f32 :=
  Host.dotGeneral dot_S1024x20000_S20000x512_S1024x512_1_0_0_1_n_n none xnn
    (transpose S20000x512 [1, 0] w transposes_S512x20000_S20000x512_1_0)

end R

end Cert.SpecE
-- ==== Proof.BridgeE.lean ====
import proofs.«415579_j11768210391563_2_alg».proof.Proof.SpecE
import Idealize.ShloMosaic.Lib.ValueLayout
import Idealize.ShloMosaic.Lib.StackMember

namespace Cert.BridgeE

open Idealize.ShloMosaic Idealize.ShloMosaic.ValueIdx Cert.SpecE

theorem pad0 (n : Nat) : n = 0 + n * (0 + 1) := by omega

section K
open Cert.KernelIdeal Cert.KernelIdeal.Facts₀
variable [Cert.KernelIdeal.Facts₀]

/-- Left of the padding a matrix padded on the right of its columns is the matrix. -/
theorem xpadK_lo (xnn : FVec Ideal S1024x20000 .f32) (i : Fin 1024) (k : Fin 20000) :
    xpadK xnn (ix2 i (Fin.castAdd 480 k)) = xnn (ix2 i k) :=
  pad_apply_of_inside _ _ _ xnn _ pads_S1024x20000_S1024x20480_000_04800 h_S_ _ _ fun a => match a with
    | ⟨0, _⟩ => pad0 i.val
    | ⟨1, _⟩ => pad0 k.val

theorem wpadK_lo (w : FVec Ideal S512x20000 .f32) (k : Fin 20000) (j : Fin 512) :
    wpadK w (ix2 (Fin.castAdd 480 k) j) = w (ix2 j k) :=
  (transpose_ix2_apply _ transposes_S512x20480_S20480x512_1_0 _ j).trans
    (pad_apply_of_inside _ _ _ w _ pads_S512x20000_S512x20480_000_04800 h_S_ (ix2 j (Fin.castAdd 480 k)) (ix2 j k) fun a => match a with
      | ⟨0, _⟩ => pad0 j.val
      | ⟨1, _⟩ => pad0 k.val)

/-- In the padding it is the padding value, the integer zero converted: the real 0. -/
theorem xpadK_hi (xnn : FVec Ideal S1024x20000 .f32) (i : Fin 1024) (k : Fin 480) :
    xpadK xnn (ix2 i (Fin.natAdd 20000 k)) = (0 : EReal) :=
  (pad_apply_of_not_inside _ _ _ xnn _ pads_S1024x20000_S1024x20480_000_04800 h_S_ _ 1 fun hin =>
    absurd hin.2.2 (by show ¬(20000 + k.val - 0) / (0 + 1) < 20000; omega)).trans
    (by show (((0#32 : BitVec 32).toInt : ℝ) : EReal) = 0; simp)

end K

variable [Cert.KernelIdeal.Facts₀] [Cert.ReferenceIdeal.Facts₀]

/-- The sum over 20480 columns splits into the first 20000, the operands' own products, and the last 480, whose left factor is 0. -/
theorem h0_eq (xnn : FVec Ideal Cert.KernelIdeal.S1024x20000 .f32) (w : FVec Ideal Cert.KernelIdeal.S512x20000 .f32)
    (h0k : FVec Ideal Cert.KernelIdeal.S1024x512 .f32)
    (hk : ∀ (i : Fin 1024) (j : Fin 512), h0k (ix2 i j) = 0 + ∑ k : Fin 20480, xpadK xnn (ix2 i k) * wpadK w (ix2 k j)) :
    h0k = h0R xnn w := by
  funext idx
  obtain ⟨i, j, rfl⟩ : ∃ (i : Fin 1024) (j : Fin 512), idx = ix2 i j := ⟨idx 0, idx 1, eq_ix2 idx⟩
  refine (hk i j).trans ((zero_add _).trans (((Fin.sum_univ_add (a := 20000) (b := 480) _).trans ?_).trans
    (StackMember.dotGeneral_plain_apply none xnn _ i j).symm))
  refine (congrArg₂ (· + ·) (Finset.sum_congr rfl fun k _ => ?_) (Finset.sum_eq_zero fun k _ => ?_)).trans (add_zero _)
  · rw [xpadK_lo, wpadK_lo, transpose_ix2_apply]
  · rw [xpadK_hi]; exact zero_mul _

end Cert.BridgeE
-- ==== Proof.LibRows.lean ====
import Idealize.ShloMosaic.PureOps.ShapeOps
import Idealize.ShloMosaic.Lib.ValueIdx

noncomputable section

open scoped BigOperators

namespace Cert.LibRows

open Idealize.ShloMosaic Idealize.ShloMosaic.ValueIdx

/-- An update lands at r exactly when on every axis its window start plus its window coordinate is r's coordinate. -/
theorem resultIdx?_eq_some {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · next h =>
    rw [Option.some.injEq, funext_iff]
    refine forall_congr' fun a => ?_
    rw [Fin.ext_iff]
    have := h a
    show (_ : Int).toNat = _ ↔ _
    omega
  · next h =>
    refine iff_of_false nofun fun hr => h fun a => ?_
    have := (r a).isLt
    rw [hr a]
    omega

section Scatter
variable {N C E w : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1) (idx : IVec ⟨2, ![E, 1]⟩ w)
include huw hiw hsd hivd

/-- Update j lands at (n, c) exactly when its row number, read signed, is n and its column is c. -/
theorem resultIdx_rows (j : (⟨2, ![E, C]⟩ : Shape).Idx) (n : Fin N) (c : Fin C) :
    d.resultIdx? j idx = some (ix2 n c) ↔ (idx (ix2 (j 0) (0 : Fin 1))).toInt = (n.val : Int) ∧ (j 1).val = c.val := by
  obtain ⟨uw, iw, sd, ivd, wf⟩ := d
  cases huw; cases hiw; cases hsd; cases hivd
  have h0 : ScatterDims.start ⟨[1], [0], [0], 1, wf⟩ j idx 0 = (idx (ix2 (j 0) (0 : Fin 1))).toInt :=
    congrArg (fun i => (idx i).toInt) (funext fun b => match b with | ⟨0, _⟩ => rfl | ⟨1, _⟩ => rfl)
  rw [resultIdx?_eq_some, Fin.forall_fin_two, h0]
  show _ + ((0 : Nat) : Int) = (n.val : Int) ∧ (0 : Int) + ((j 1).val : Int) = (c.val : Int) ↔ _
  omega

/-- Read at (n, c): the operand's entry plus column c of the update rows whose signed, unclamped row number is n. -/
theorem scatterAdd_rows2 (x : (⟨2, ![N, C]⟩ : Shape).Idx → EReal) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  have key := resultIdx_rows d huw hiw hsd hivd idx
  refine congrArg (x _ + ·) (Finset.sum_bij' (fun j _ => j 0) (fun e _ => ix2 e c) ?_ ?_ ?_ ?_ ?_)
  all_goals simp only [Finset.mem_filter, Finset.mem_univ, true_and, key]
  · exact fun _ h => Finset.mem_filter.2 ⟨Finset.mem_univ _, h.1⟩
  · exact fun _ h => ⟨h, rfl⟩
  · exact fun j h => Fin.ext h.2 ▸ (eq_ix2 j).symm
  · exact fun _ _ => rfl
  · exact fun j h => congrArg upd (Fin.ext h.2 ▸ eq_ix2 j)

end Scatter

/-- Read at (e, c): column c of the operand's row numbered by entry e, read signed and clamped into [0, N - 1]. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hsl : d.sliceSizes 0 = 1 := d.slice_collapsed 0 (by rw [hcoll]; exact List.mem_singleton.mpr rfl)
  obtain ⟨od, cd, ob, sb, sm, ivd, ss, wf⟩ := d
  cases hoff; cases hcoll; cases hob; cases hsim; cases hivd
  have hi : ∀ k, GatherDims.siIdx ⟨[1], [0], [], sb, [0], 1, ss, wf⟩ (ix2 e c) k = ix2 e (0 : Fin 1) := fun k =>
    funext fun b => match b with | ⟨0, _⟩ => rfl | ⟨1, _⟩ => Fin.ext (Nat.lt_one_iff.1 k.isLt)
  refine congrArg x (funext fun a => Fin.ext ?_)
  match a with
  | ⟨0, _⟩ =>
    show min (idx _).toInt.toNat (N - ss 0) + 0 + 0 = _
    rw [hi, show ss 0 = 1 from hsl]
    rfl
  | ⟨1, _⟩ =>
    show 0 + 0 + c.val = c.val
    omega

end Cert.LibRows

end
-- ==== Proof.LibPairs.lean ====
import proofs.«415579_j11768210391563_2_alg».proof.Proof.LibRows

noncomputable section

open scoped BigOperators

namespace Cert.LibPairs

open Idealize.ShloMosaic Idealize.ShloMosaic.ValueIdx

variable {N M E w : Nat} (d : ScatterDims ⟨2, ![N, M]⟩ ⟨2, ![E, 2]⟩ ⟨1, ![E]⟩)
  (huw : d.updateWindowDims = []) (hiw : d.insertedWindowDims = [0, 1])
  (hsd : d.scatterDimsToOperandDims = [0, 1]) (hivd : d.indexVectorDim = 1) (idx : IVec ⟨2, ![E, 2]⟩ w)
include huw hiw hsd hivd

/-- Update j lands at (n, k) exactly when its (row, column) pair, read signed, is (n, k). -/
theorem resultIdx (j : (⟨1, ![E]⟩ : Shape).Idx) (n : Fin N) (k : Fin M) :
    d.resultIdx? j idx = some (ix2 n k)
      ↔ (idx (ix2 (j 0) (0 : Fin 2))).toInt = (n.val : Int) ∧ (idx (ix2 (j 0) (1 : Fin 2))).toInt = (k.val : Int) := by
  obtain ⟨uw, iw, sd, ivd, wf⟩ := d
  cases huw; cases hiw; cases hsd; cases hivd
  have h : ∀ a : Fin 2, ScatterDims.start ⟨[], [0, 1], [0, 1], 1, wf⟩ j idx a = (idx (ix2 (j 0) a)).toInt := fun a =>
    match a with
    | ⟨0, _⟩ => congrArg (fun i => (idx i).toInt) (funext fun b => match b with | ⟨0, _⟩ => rfl | ⟨1, _⟩ => rfl)
    | ⟨1, _⟩ => congrArg (fun i => (idx i).toInt) (funext fun b => match b with | ⟨0, _⟩ => rfl | ⟨1, _⟩ => rfl)
  rw [Cert.LibRows.resultIdx?_eq_some, Fin.forall_fin_two, h, h]
  show _ + ((0 : Nat) : Int) = (n.val : Int) ∧ _ + ((0 : Nat) : Int) = (k.val : Int) ↔ _
  omega

/-- Read at (n, k): the operand's entry plus the values of the updates whose signed, unclamped pair is (n, k). -/
theorem pairScatterAdd (x : (⟨2, ![N, M]⟩ : Shape).Idx → EReal) (upd : (⟨1, ![E]⟩ : Shape).Idx → EReal)
    (n : Fin N) (k : Fin M) :
    Ideal.hostScatterAdd d x idx upd (ix2 n k) = x (ix2 n k)
      + ∑ e ∈ Finset.univ.filter (fun e : Fin E =>
          (idx (ix2 e (0 : Fin 2))).toInt = (n.val : Int) ∧ (idx (ix2 e (1 : Fin 2))).toInt = (k.val : Int)),
        upd (ix1 e) := by
  have key := resultIdx d huw hiw hsd hivd idx
  refine congrArg (x _ + ·) (Finset.sum_bij' (fun j _ => j 0) (fun e _ => ix1 e) ?_ ?_ ?_ ?_ ?_)
  all_goals simp only [Finset.mem_filter, Finset.mem_univ, true_and, key]
  · exact fun _ h => Finset.mem_filter.2 ⟨Finset.mem_univ _, h⟩
  · exact fun _ h => h
  · exact fun j _ => (eq_ix1 j).symm
  · exact fun _ _ => rfl
  · exact fun j _ => congrArg upd (eq_ix1 j)

end Cert.LibPairs

end
-- ==== Proof.SpmmLaw.lean ====
import Mathlib.Data.EReal.Basic
import Mathlib.Algebra.BigOperators.Ring.Finset

open scoped BigOperators

namespace Cert.SpmmLaw

/-- The coercion of the reals into the extended reals is additive, so it commutes with finite sums. -/
theorem coe_sum {ι : Type*} (s : Finset ι) (f : ι → ℝ) :
    ((∑ i ∈ s, f i : ℝ) : EReal) = ∑ i ∈ s, (f i : EReal) :=
  map_sum (⟨⟨Real.toEReal, rfl⟩, EReal.coe_add⟩ : ℝ →+ EReal) f s

/-- Split the selected triples by their column k, where y (c e) = y k, and pull y k out of each part. -/
theorem sum_filter_pair_mul {N E : ℕ} (P : Fin E → Prop) [DecidablePred P] (c : Fin E → Fin N) (v : Fin E → ℝ)
    (y : Fin N → ℝ) :
    ∑ k, (∑ e ∈ Finset.univ.filter (fun e => P e ∧ c e = k), v e) * y k = ∑ e ∈ Finset.univ.filter P, v e * y (c e) := by
  rw [← Finset.sum_fiberwise (Finset.univ.filter P) c]
  refine Finset.sum_congr rfl fun k _ => ?_
  rw [Finset.sum_mul, Finset.filter_filter]
  exact Finset.sum_congr rfl fun e he => by rw [(Finset.mem_filter.1 he).2.2]

/-- For real entries the densified product and the row-by-row product, each from zero, are one real number. -/
theorem spmm {N E : ℕ} (P : Fin E → Prop) [DecidablePred P] (c : Fin E → Fin N) (v : Fin E → ℝ) (y : Fin N → ℝ) :
    ∃ r : ℝ,
      ∑ k, ((0 : EReal) + ∑ e ∈ Finset.univ.filter (fun e => P e ∧ c e = k), (v e : EReal)) * (y k : EReal) = r
      ∧ (0 : EReal) + ∑ e ∈ Finset.univ.filter P, (v e : EReal) * (y (c e) : EReal) = r := by
  refine ⟨∑ e ∈ Finset.univ.filter P, v e * y (c e), ?_, ?_⟩ <;> simp only [zero_add, ← coe_sum, ← EReal.coe_mul]
  exact congrArg _ (sum_filter_pair_mul P c v y)

end Cert.SpmmLaw
-- ==== Proof.BridgeX.lean ====
import proofs.«415579_j11768210391563_2_alg».proof.Proof.SpecX
import proofs.«415579_j11768210391563_2_alg».proof.Proof.LibPairs
import proofs.«415579_j11768210391563_2_alg».proof.Proof.SpmmLaw
import Idealize.ShloMosaic.PureOps.Ideal.Laws
import Idealize.ShloMosaic.Lib.Pipeline.Value

noncomputable section

open scoped BigOperators

namespace Cert.BridgeX

open Idealize.ShloMosaic Idealize.ShloMosaic.ValueIdx Cert.SpecX

/-- A word whose signed value is non-negative is not below zero, so the negative-index wrap returns it. -/
theorem wrap_nonneg (a b : BitVec 32) (h : 0 ≤ a.toInt) : Scalar.select (IntOp.cmpi .slt a 0#32) b a = a := by
  have hs : a.slt 0#32 = false := by
    simp only [BitVec.slt, BitVec.toInt_zero, decide_eq_false_iff_not, not_lt]; exact h
  show Scalar.select (BitVec.ofBool (a.slt 0#32)) b a = a
  rw [hs]; exact select_zero _ _

/-- The zero splat reads 0 everywhere. -/
theorem zeros_apply {t : Shape} (h : (⟨0, ![]⟩ : Shape).BroadcastsInDim t ![]) (j : t.Idx) :
    broadcastInDim t ![] h (constant (F := Ideal) ⟨0, ![]⟩ .f32 0x00000000#32) j = (0 : EReal) :=
  Ideal.ofBits_zero_f32

/-- A length-E vector as an [E, 1] column reads, at (e, 0), the vector at e. -/
theorem col_apply {α : Type} (h : (⟨1, ![262144]⟩ : Shape).BroadcastsInDim ⟨2, ![262144, 1]⟩ ![0])
    (v : (⟨1, ![262144]⟩ : Shape).Idx → α) (e : Fin 262144) :
    broadcastInDim ⟨2, ![262144, 1]⟩ ![0] h v (ix2 e (0 : Fin 1)) = v (ix1 e) :=
  broadcastInDim_apply _ _ _ _ (ix1 e) fun a => match a with | ⟨0, _⟩ => rfl

/-- An [E, 1] column laid across [E, 1024] reads, at (e, j), the column at (e, 0). -/
theorem across_apply {α : Type} (h : (⟨2, ![262144, 1]⟩ : Shape).BroadcastsInDim ⟨2, ![262144, 1024]⟩ ![0, 1])
    (v : (⟨2, ![262144, 1]⟩ : Shape).Idx → α) (e : Fin 262144) (j : Fin 1024) :
    broadcastInDim ⟨2, ![262144, 1024]⟩ ![0, 1] h v (ix2 e j) = v (ix2 e (0 : Fin 1)) :=
  broadcastInDim_apply _ _ _ _ (ix2 e (0 : Fin 1)) fun a => match a with | ⟨0, _⟩ => rfl | ⟨1, _⟩ => rfl

section
variable [Cert.KernelIdeal.Facts₀] [Cert.ReferenceIdeal.Facts₀]

/-- The transposed input at (k, j) is the input at (j, k). -/
theorem x0T_apply (xg : FVec Ideal Cert.KernelIdeal.S1024x8192 .f32) (k : Fin 8192) (j : Fin 1024) :
    x0T xg (ix2 k j) = xg (ix2 j k) :=
  transpose_apply _ _ _ (ix2 k j) (ix2 j k) fun b => match b with | ⟨0, _⟩ => rfl | ⟨1, _⟩ => rfl

variable (rows cols : IVec Cert.KernelIdeal.S262144 32) (vals : FVec Ideal Cert.KernelIdeal.S262144 .f32)
  (hr0 : ∀ e : Fin 262144, 0 ≤ (rows (ix1 e)).toInt) (hc0 : ∀ e : Fin 262144, 0 ≤ (cols (ix1 e)).toInt)

include hr0 hc0 in
/-- The densified operator at (n, k): zero plus the values of the triples whose (row, column) is (n, k). -/
theorem Lk_apply (n k : Fin 8192) :
    Lk rows cols vals (ix2 n k) = (0 : EReal) + ∑ e ∈ Finset.univ.filter (fun e : Fin 262144 =>
        (rows (ix1 e)).toInt = (n.val : Int) ∧ (cols (ix1 e)).toInt = (k.val : Int)), vals (ix1 e) := by
  have p0 : ∀ e, pairs rows cols (ix2 e (0 : Fin 2)) = rows (ix1 e) := fun e =>
    (concatenate_pair_apply_left (t := ⟨2, ![262144, 2]⟩) (s₁ := ⟨2, ![262144, 1]⟩) (s₂ := ⟨2, ![262144, 1]⟩)
      (1 : Fin 2) _ _ _ (ix2 e (0 : Fin 2)) rfl (ix2 e (0 : Fin 1))
      fun b => match b with | ⟨0, _⟩ => rfl | ⟨1, _⟩ => rfl).trans ((col_apply _ _ e).trans (wrap_nonneg _ _ (hr0 e)))
  have p1 : ∀ e, pairs rows cols (ix2 e (1 : Fin 2)) = cols (ix1 e) := fun e =>
    (concatenate_pair_apply_right (t := ⟨2, ![262144, 2]⟩) (s₁ := ⟨2, ![262144, 1]⟩) (s₂ := ⟨2, ![262144, 1]⟩)
      (1 : Fin 2) _ _ _ (ix2 e (1 : Fin 2)) rfl rfl (ix2 e (0 : Fin 1))
      (fun b hb => match b, hb with | ⟨0, _⟩, _ => rfl | ⟨1, _⟩, hb => absurd rfl hb) rfl).trans
      ((col_apply _ _ e).trans (wrap_nonneg _ _ (hc0 e)))
  unfold Lk Ldense Host.scatterAdd
  rw [truncf_apply, Ideal.hostScatterAdd_def, Cert.LibPairs.pairScatterAdd _ rfl rfl rfl rfl, zeros_apply]
  simp only [p0, p1]

include hc0 in
/-- One row-by-row product at (n, j): zero plus, over the triples of row n, value times x at (clamped column, j). -/
theorem spmmR_apply (x : FVec Ideal Cert.ReferenceIdeal.S8192x1024 .f32) (n : Fin 8192) (j : Fin 1024) :
    spmmR rows cols vals x (ix2 n j) = (0 : EReal) + ∑ e ∈ Finset.univ.filter (fun e : Fin 262144 =>
        (rows (ix1 e)).toInt = (n.val : Int)),
      vals (ix1 e) * x (ix2 ⟨min (cols (ix1 e)).toInt.toNat (8192 - 1), by omega⟩ j) := by
  have hcol : ∀ e, broadcastInDim Cert.ReferenceIdeal.S262144x1 ![0] Cert.ReferenceIdeal.Facts₀.bcast_S262144_S262144x1_0
      (normIdxR cols) (ix2 e (0 : Fin 1)) = cols (ix1 e) := fun e => (col_apply _ _ e).trans (wrap_nonneg _ _ (hc0 e))
  unfold spmmR Host.scatterAdd
  rw [Ideal.hostScatterAdd_def, Cert.LibRows.scatterAdd_rows2 _ rfl rfl rfl rfl, zeros_apply]
  refine congrArg ((0 : EReal) + ·) (Finset.sum_congr (Finset.filter_congr fun e _ => by rw [col_apply]) fun e _ => ?_)
  rw [mulf_apply, across_apply, col_apply, Cert.LibRows.gather_rows2 (show 0 < 8192 by omega) _ rfl rfl rfl rfl rfl]
  simp only [hcol]

include hr0 in
/-- For real values and real x, entry (i, j) of (densified operator) · x and of the row-by-row product are one real. -/
theorem dense_spmmR (hc : ∀ e : Fin 262144, 0 ≤ (cols (ix1 e)).toInt ∧ (cols (ix1 e)).toInt < 8192)
    (hv : ∀ e : Fin 262144, ∃ r : ℝ, vals (ix1 e) = (r : EReal))
    (x : FVec Ideal Cert.ReferenceIdeal.S8192x1024 .f32)
    (hx : ∀ (k : Fin 8192) (j : Fin 1024), ∃ r : ℝ, x (ix2 k j) = (r : EReal)) (i : Fin 8192) (j : Fin 1024) :
    ∃ r : ℝ, ∑ k : Fin 8192, Lk rows cols vals (ix2 i k) * x (ix2 k j) = r ∧ spmmR rows cols vals x (ix2 i j) = r := by
  choose vr hvr using hv
  choose xr hxr using hx
  have hc0 := fun e => (hc e).1
  obtain ⟨r, h1, h2⟩ := Cert.SpmmLaw.spmm (fun e : Fin 262144 => (rows (ix1 e)).toInt = (i.val : Int))
    (fun e => (⟨min (cols (ix1 e)).toInt.toNat (8192 - 1), by omega⟩ : Fin 8192)) vr (fun k => xr k j)
  refine ⟨r, ?_, ?_⟩
  · rw [← h1]
    refine Finset.sum_congr rfl fun k _ => ?_
    rw [Lk_apply rows cols vals hr0 hc0 i k, hxr]
    refine congrArg (fun s => ((0 : EReal) + s) * (xr k j : EReal)) (Finset.sum_congr (Finset.filter_congr fun e _ =>
      and_congr_right' ?_) fun e _ => hvr e)
    rw [Fin.ext_iff]
    show _ ↔ min (cols (ix1 e)).toInt.toNat (8192 - 1) = k.val
    have := hc e
    omega
  · rw [← h2, spmmR_apply rows cols vals hc0 x i j]
    exact congrArg ((0 : EReal) + ·) (Finset.sum_congr rfl fun e _ => by rw [hvr, hxr])

end

section
variable [Cert.KernelIdeal.Facts₀] [Cert.ReferenceIdeal.Facts₀]
variable (rows cols : IVec Cert.KernelIdeal.S262144 32) (vals : FVec Ideal Cert.KernelIdeal.S262144 .f32)
  (xg : FVec Ideal Cert.KernelIdeal.S1024x8192 .f32)
  (hrows : ∀ i, 0 ≤ (rows i).toInt ∧ (rows i).toInt < 8192) (hcols : ∀ i, 0 ≤ (cols i).toInt ∧ (cols i).toInt < 8192)
  (hvals : ∀ i, ∃ r : ℝ, vals i = (r : EReal)) (hxg : ∀ i, ∃ r : ℝ, xg i = (r : EReal))

include hrows hcols hvals hxg in
/-- x1 = L x0: the sum from zero over k of the densified operator's (i, k) entry times x0's (k, j) entry. -/
theorem x1_eq (x1k : FVec Ideal Cert.KernelIdeal.S8192x1024 .f32)
    (h1 : ∀ (i : Fin 8192) (j : Fin 1024), x1k (ix2 i j)
      = (0 : EReal) + ∑ k : Fin 8192, Lk rows cols vals (ix2 i k) * x0bf xg (ix2 k j)) :
    x1k = x1R rows cols vals xg := by
  funext idx
  obtain ⟨i, j, rfl⟩ : ∃ i j, idx = ix2 i j := ⟨idx 0, idx 1, eq_ix2 idx⟩
  obtain ⟨r, hd, hs⟩ := dense_spmmR rows cols vals (fun e => (hrows _).1) (fun e => hcols _) (fun e => hvals _)
    (x0T xg) (fun k j => (x0T_apply xg k j).symm ▸ hxg _) i j
  rw [h1 i j, zero_add]
  exact hd.trans hs.symm

include hrows hcols hvals hxg in
/-- x2 = 2 (L x1) - x0, the sum started from zero; x1's entries are real, so the law applies a second time. -/
theorem x2_eq (x2k : FVec Ideal Cert.KernelIdeal.S8192x1024 .f32)
    (h2 : ∀ (i : Fin 8192) (j : Fin 1024), x2k (ix2 i j)
      = Ideal.ofBits .f32 0x40000000#32
          * ((0 : EReal) + ∑ k : Fin 8192, Lk rows cols vals (ix2 i k) * bf (x1R rows cols vals xg) (ix2 k j))
        - x0T xg (ix2 i j)) :
    x2k = x2R rows cols vals xg := by
  funext idx
  obtain ⟨i, j, rfl⟩ : ∃ i j, idx = ix2 i j := ⟨idx 0, idx 1, eq_ix2 idx⟩
  have hd := dense_spmmR rows cols vals (fun e => (hrows _).1) (fun e => hcols _) (fun e => hvals _)
  obtain ⟨r, hd2, hs2⟩ := hd (x1R rows cols vals xg) (fun k j =>
    (hd (x0T xg) (fun k j => (x0T_apply xg k j).symm ▸ hxg _) k j).imp fun _ h => h.2) i j
  rw [h2 i j, zero_add]
  show _ = Ideal.ofBits .f32 0x40000000#32 * spmmR rows cols vals (x1R rows cols vals xg) (ix2 i j) - x0T xg (ix2 i j)
  rw [hs2, ← hd2]
  rfl

end

end Cert.BridgeX

end
-- ==== Proof.KerArgs.lean ====
import proofs.«415579_j11768210391563_2_alg».proof.Proof.Gen.KernelIdeal.Regions
import Idealize.ShloMosaic.PureOps.Ideal

noncomputable section

namespace Cert.KerArgs

open Cert.KernelIdeal Cert.KernelIdeal.Gen Idealize.ShloMosaic Idealize.ShloMosaic.TcCoe Idealize.SL.Sem

variable (m : (ℓ : Loc nD τ sig) → Buf (Elt Ideal) ℓ) (outs : Outs (F := Ideal)) (c : Dev nD)

/-- The buffers item `k` of the program may write. -/
def Ws : List (List (Ref sig .tc)) := [hostOps0_W, [main_v18], hostOps1_W, [main_v20], hostOps2_W, hostOps2_1_W, hostOps2_2_W, hostOps2_3_W, hostOps2_4_W, hostOps2_5_W, hostOps2_6_W, hostOps2_7_W, hostOps2_8_W, hostOps2_9_W, hostOps2_10_W, hostOps2_11_W, hostOps2_12_W, [main_v84], hostOps3_W, hostOps3_1_W, hostOps3_2_W, hostOps3_3_W, hostOps3_4_W, hostOps3_5_W, hostOps3_6_W, hostOps3_7_W, hostOps3_8_W]

/-- The buffers' contents before item `k`. -/
def Vn : ℕ → Valuation τ sig (Elt Ideal)
  | 0 => V0 m c
  | 1 => V1 m c
  | 2 => V2 m outs c
  | 3 => V3 m outs c
  | 4 => V4 m outs c
  | 5 => V5 m outs c
  | 6 => V6 m outs c
  | 7 => V7 m outs c
  | 8 => V8 m outs c
  | 9 => V9 m outs c
  | 10 => V10 m outs c
  | 11 => V11 m outs c
  | 12 => V12 m outs c
  | 13 => V13 m outs c
  | 14 => V14 m outs c
  | 15 => V15 m outs c
  | 16 => V16 m outs c
  | 17 => V17 m outs c
  | 18 => V18 m outs c
  | 19 => V19 m outs c
  | 20 => V20 m outs c
  | 21 => V21 m outs c
  | 22 => V22 m outs c
  | 23 => V23 m outs c
  | 24 => V24 m outs c
  | 25 => V25 m outs c
  | 26 => V26 m outs c
  | _ => V27 m outs c

theorem Vn_succ (r : Ref sig .tc) : ∀ k, r ∉ Ws.getD k [] → Vn m outs c (k + 1) r = Vn m outs c k r
  | 0, h => V1_of m c r h
  | 1, h => V2_of m outs c r h
  | 2, h => V3_of m outs c r h
  | 3, h => V4_of m outs c r h
  | 4, h => V5_of m outs c r h
  | 5, h => V6_of m outs c r h
  | 6, h => V7_of m outs c r h
  | 7, h => V8_of m outs c r h
  | 8, h => V9_of m outs c r h
  | 9, h => V10_of m outs c r h
  | 10, h => V11_of m outs c r h
  | 11, h => V12_of m outs c r h
  | 12, h => V13_of m outs c r h
  | 13, h => V14_of m outs c r h
  | 14, h => V15_of m outs c r h
  | 15, h => V16_of m outs c r h
  | 16, h => V17_of m outs c r h
  | 17, h => V18_of m outs c r h
  | 18, h => V19_of m outs c r h
  | 19, h => V20_of m outs c r h
  | 20, h => V21_of m outs c r h
  | 21, h => V22_of m outs c r h
  | 22, h => V23_of m outs c r h
  | 23, h => V24_of m outs c r h
  | 24, h => V25_of m outs c r h
  | 25, h => V26_of m outs c r h
  | 26, h => V27_of m outs c r h
  | _ + 27, _ => rfl

/-- A buffer that no item from `j` up to `k` writes holds before item `k` what it held before item `j`. -/
theorem carry (r : Ref sig .tc) (j k : ℕ) (h : j ≤ k ∧ ∀ i < k, j ≤ i → r ∉ Ws.getD i []) :
    Vn m outs c k r = Vn m outs c j r := by
  obtain ⟨hjk, h⟩ := h
  induction k, hjk using Nat.le_induction with
  | base => rfl
  | succ k hk ih => exact (Vn_succ m outs c r k (h k k.lt_succ_self hk)).trans (ih fun i hi => h i (Nat.lt_succ_of_lt hi))

end Cert.KerArgs

end
-- ==== Proof.KerEntry.lean ====
import proofs.«415579_j11768210391563_2_alg».proof.Proof.KerArgs
import proofs.«415579_j11768210391563_2_alg».proof.Proof.SpecX
import proofs.«415579_j11768210391563_2_alg».proof.Proof.SpecE
import Idealize.ShloMosaic.Lib.StableHlo.Run

noncomputable section

namespace Cert.KerEntry

open Cert.KernelIdeal Cert.KernelIdeal.Gen Idealize.ShloMosaic Idealize.ShloMosaic.TcCoe Idealize.SL.Sem Idealize.ShloMosaic.StableHlo

set_option maxRecDepth 4096

section stretches
variable (W : Valuation τ sig (Elt Ideal))

/-- The operations before each product, read at the product's operands over any contents `W` they start from. -/
theorem s0_L {a2 a3 a4} (h2 : W main_arg2 = a2) (h3 : W main_arg3 = a3) (h4 : W main_arg4 = a4) :
    after hostOps0 W main_v15 = SpecX.Lk a2 a3 a4 := by
  subst_vars; dsimp only [hostOps0]; after_results_simp <;> rfl

theorem s0_x0 {a0} (h0 : W main_arg0 = a0) : after hostOps0 W main_v16 = SpecX.x0T a0 := by
  subst_vars; dsimp only [hostOps0]; after_results <;> rfl

theorem s0_x0bf {a0} (h0 : W main_arg0 = a0) : after hostOps0 W main_v17 = SpecX.x0bf a0 := by
  subst_vars; dsimp only [hostOps0]; after_results <;> rfl

theorem s1 {x1} (h : W main_v18 = x1) : after hostOps1 W main_v19 = SpecX.bf x1 := by
  subst_vars; dsimp only [hostOps1]; after_results <;> rfl

theorem s2_8 : after hostOps2_8 W main_c_6 = constantI S_ 32 0#32 := by
  dsimp only [hostOps2_8]; after_results <;> rfl

theorem s2_9 {a1 z} (h1 : W main_arg1 = a1) (hz : W main_c_6 = z) : after hostOps2_9 W main_v79
    = pad S1024x20480 ![0, 0] ![0, 480] ![0, 0] a1 (sitofp (F := Ideal) .f32 z) pads_S1024x20000_S1024x20480_000_04800 h_S_ := by
  subst_vars; dsimp only [hostOps2_9]; after_results <;> rfl

theorem s2_10 : after hostOps2_10 W main_c_7 = constantI S_ 32 0#32 := by
  dsimp only [hostOps2_10]; after_results <;> rfl

theorem s2_11 {a13 z} (h13 : W main_arg13 = a13) (hz : W main_c_7 = z) : after hostOps2_11 W main_v80
    = pad S512x20480 ![0, 0] ![0, 480] ![0, 0] a13 (sitofp (F := Ideal) .f32 z) pads_S512x20000_S512x20480_000_04800 h_S_ := by
  subst_vars; dsimp only [hostOps2_11]; after_results <;> rfl

theorem s2_12_v81 {x : FVec Ideal S1024x20480 .f32} (hx : W main_v79 = x) : after hostOps2_12 W main_v81 = truncf .bf16 x bitsLt_bf16_f32 := by
  subst_vars; dsimp only [hostOps2_12]; after_results <;> rfl

theorem s2_12_v83 {x : FVec Ideal S512x20480 .f32} (hx : W main_v80 = x) : after hostOps2_12 W main_v83
    = truncf .bf16 (transpose S20480x512 [1, 0] x transposes_S512x20480_S20480x512_1_0) bitsLt_bf16_f32 := by
  subst_vars; dsimp only [hostOps2_12]; after_results <;> rfl

end stretches

variable (m : (ℓ : Loc nD τ sig) → Buf (Elt Ideal) ℓ) (outs : Outs (F := Ideal))

theorem ker_L (c : Dev nD) :
    Gen.V1 m c main_v15 = Cert.SpecX.Lk (m ((c.tc : Thread nD τ).loc main_arg2)) (m ((c.tc : Thread nD τ).loc main_arg3)) (m ((c.tc : Thread nD τ).loc main_arg4)) :=
  s0_L (V0 m c) rfl rfl rfl

theorem ker_x0bf (c : Dev nD) : Gen.V1 m c main_v17 = Cert.SpecX.x0bf (m ((c.tc : Thread nD τ).loc main_arg0)) :=
  s0_x0bf (V0 m c) rfl

theorem ker_x0_1 (c : Dev nD) : Gen.V1 m c main_v16 = Cert.SpecX.x0T (m ((c.tc : Thread nD τ).loc main_arg0)) :=
  s0_x0 (V0 m c) rfl

theorem ker_L' (c : Dev nD) :
    Gen.V3 m outs c main_v15 = Cert.SpecX.Lk (m ((c.tc : Thread nD τ).loc main_arg2)) (m ((c.tc : Thread nD τ).loc main_arg3)) (m ((c.tc : Thread nD τ).loc main_arg4)) :=
  (KerArgs.carry m outs c main_v15 1 3 (by decide)).trans (ker_L m c)

theorem ker_x0 (c : Dev nD) : Gen.V3 m outs c main_v16 = Cert.SpecX.x0T (m ((c.tc : Thread nD τ).loc main_arg0)) :=
  (KerArgs.carry m outs c main_v16 1 3 (by decide)).trans (ker_x0_1 m c)

theorem ker_x1bf (c : Dev nD) : Gen.V3 m outs c main_v19 = Cert.SpecX.bf (outs 2 main_v18 c) :=
  s1 (V2 m outs c) (by simp only [V2, Function.update_self])

theorem ker_xpad (c : Dev nD) : Gen.V17 m outs c main_v81 = Cert.SpecE.xpadK (m ((c.tc : Thread nD τ).loc main_arg1)) :=
  s2_12_v81 (V16 m outs c) ((KerArgs.carry m outs c main_v79 14 16 (by decide)).trans
    (s2_9 (V13 m outs c) (KerArgs.carry m outs c main_arg1 0 13 (by decide)) (s2_8 (V12 m outs c))))

theorem ker_wpad (c : Dev nD) : Gen.V17 m outs c main_v83 = Cert.SpecE.wpadK (m ((c.tc : Thread nD τ).loc main_arg13)) :=
  s2_12_v83 (V16 m outs c) (s2_11 (V15 m outs c) (KerArgs.carry m outs c main_arg13 0 15 (by decide)) (s2_10 (V14 m outs c)))

end Cert.KerEntry

end
-- ==== Proof.KerTail.lean ====
import proofs.«415579_j11768210391563_2_alg».proof.Proof.KerArgs
import proofs.«415579_j11768210391563_2_alg».proof.Proof.KerEntry
import proofs.«415579_j11768210391563_2_alg».proof.Proof.SpecT
import proofs.«415579_j11768210391563_2_alg».proof.Proof.SpecP
import proofs.«415579_j11768210391563_2_alg».proof.Proof.SpecX
import Idealize.ShloMosaic.Lib.StableHlo.Run

noncomputable section

namespace Cert.KerTail

open Cert.KernelIdeal Cert.KernelIdeal.Gen Idealize.ShloMosaic Idealize.ShloMosaic.TcCoe Idealize.SL.Sem Idealize.ShloMosaic.StableHlo

set_option maxRecDepth 4096

section stretches
variable (W : Valuation τ sig (Elt Ideal))

set_option maxHeartbeats 4000000 in
/-- Each run of operations between two products, read at a buffer a later operation uses, from any contents `W`. -/
theorem s2 {x0 x1 x2 w b} (h16 : W main_v16 = x0) (h18 : W main_v18 = x1) (h20 : W main_v20 = x2) (h5 : W main_arg5 = w)
    (h6 : W main_arg6 = b) : after hostOps2 W main_v46 = SpecP.combK x0 x1 x2 w b := by
  subst_vars; dsimp only [hostOps2]; after_results_simp <;> rfl

theorem s2_1 {y} (h : W main_v46 = y) : after hostOps2_1 W main_v47 = SpecP.reluK y := by
  subst_vars; dsimp only [hostOps2_1]; after_results <;> rfl

theorem s2_2 {y a b} (hy : W main_v47 = y) (ha : W main_arg7 = a) (hb : W main_arg8 = b) :
    after hostOps2_2 W main_v56 = SpecT.fc1 (SpecP.maxK y) a b := by
  subst_vars; dsimp only [hostOps2_2]; after_results <;> rfl

theorem s2_3 {x} (h : W main_v56 = x) : after hostOps2_3 W main_v57 = SpecT.relu bcast_S_S1024x512 x := by
  subst_vars; dsimp only [hostOps2_3]; after_results <;> rfl

theorem s2_4 {x a b} (hx : W main_v57 = x) (ha : W main_arg9 = a) (hb : W main_arg10 = b) :
    after hostOps2_4 W main_v62 = SpecT.fc2 x a b := by
  subst_vars; dsimp only [hostOps2_4]; after_results <;> rfl

theorem s2_5 {x} (h : W main_v62 = x) : after hostOps2_5 W main_v63 = SpecT.relu bcast_S_S1024x256 x := by
  subst_vars; dsimp only [hostOps2_5]; after_results <;> rfl

set_option maxHeartbeats 4000000 in
theorem s2_6_v68 {x a b} (hx : W main_v63 = x) (ha : W main_arg11 = a) (hb : W main_arg12 = b) :
    after hostOps2_6 W main_v68 = SpecT.fc3 x a b := by
  subst_vars; dsimp only [hostOps2_6]; after_results_simp <;> rfl

set_option maxHeartbeats 4000000 in
theorem s2_6_v77 {a23 a24 a25 a26 a27} (h23 : W main_arg23 = a23) (h24 : W main_arg24 = a24) (h25 : W main_arg25 = a25)
    (h26 : W main_arg26 = a26) (h27 : W main_arg27 = a27) : after hostOps2_6 W main_v77 = SpecT.dec a23 a24 a25 a26 a27 := by
  subst_vars; dsimp only [hostOps2_6]; after_results_simp <;> rfl

theorem s2_6_c : after hostOps2_6 W main_cst_4 = constant (F := Ideal) S_ .f32 0x00000000#32
    ∧ after hostOps2_6 W main_cst_5 = constant (F := Ideal) S_ .f32 0x3F800000#32 := by
  dsimp only [hostOps2_6]; constructor <;> after_results_simp <;> rfl

theorem s2_7 {x lo hi} (hx : W main_v77 = x) (hlo : W main_cst_4 = lo) (hhi : W main_cst_5 = hi) :
    after hostOps2_7 W main_v78 = SpecT.clip lo hi x := by
  subst_vars; dsimp only [hostOps2_7]; after_results <;> rfl

theorem s3 {h0 b} (hh : W main_v84 = h0) (hb : W main_arg14 = b) :
    after hostOps3 W main_v87 = SpecT.bias bcast_S512_S1x512_1 bcast_S1x512_S1024x512_0_1 h0 b := by
  subst_vars; dsimp only [hostOps3]; after_results <;> rfl

theorem s3_1 {x} (h : W main_v87 = x) : after hostOps3_1 W main_v88 = SpecT.celu bcast_S_S1024x512 x := by
  subst_vars; dsimp only [hostOps3_1]; after_results <;> rfl

theorem s3_2 {x a b} (hx : W main_v88 = x) (ha : W main_arg15 = a) (hb : W main_arg16 = b) :
    after hostOps3_2 W main_v93 = SpecT.fc2 x a b := by
  subst_vars; dsimp only [hostOps3_2]; after_results <;> rfl

theorem s3_3 {x} (h : W main_v93 = x) : after hostOps3_3 W main_v94 = SpecT.celu bcast_S_S1024x256 x := by
  subst_vars; dsimp only [hostOps3_3]; after_results <;> rfl

theorem s3_4 {x a b} (hx : W main_v94 = x) (ha : W main_arg17 = a) (hb : W main_arg18 = b) :
    after hostOps3_4 W main_v99 = SpecT.enc2 x a b := by
  subst_vars; dsimp only [hostOps3_4]; after_results <;> rfl

theorem s3_5 {x} (h : W main_v99 = x) : after hostOps3_5 W main_v100 = SpecT.celu bcast_S_S1024x128 x := by
  subst_vars; dsimp only [hostOps3_5]; after_results <;> rfl

theorem s3_6 {x a b} (hx : W main_v100 = x) (ha : W main_arg19 = a) (hb : W main_arg20 = b) :
    after hostOps3_6 W main_v105 = SpecT.enc3 x a b := by
  subst_vars; dsimp only [hostOps3_6]; after_results <;> rfl

theorem s3_7 {x} (h : W main_v105 = x) : after hostOps3_7 W main_v106 = SpecT.celu bcast_S_S1024x64 x := by
  subst_vars; dsimp only [hostOps3_7]; after_results <;> rfl

set_option maxHeartbeats 4000000 in
theorem s3_8_z {x gf a21 a22 a28 a29} (hx : W main_v106 = x) (hg : W main_v68 = gf) (h21 : W main_arg21 = a21)
    (h22 : W main_arg22 = a22) (h28 : W main_arg28 = a28) (h29 : W main_arg29 = a29) :
    after hostOps3_8 W main_v132 = SpecT.zed gf (SpecT.enc4 x a21 a22) a28 a29 := by
  subst_vars; dsimp only [hostOps3_8]; after_results_simp <;> rfl

set_option maxHeartbeats 4000000 in
/-- The last operation multiplies the softmax it has just written by the clipped decoder product. -/
theorem s3_8_recon {sg} (hs : W main_v78 = sg) :
    after hostOps3_8 W main_v133 = SpecT.recon (after hostOps3_8 W main_v132) sg := by
  subst_vars; dsimp only [hostOps3_8]; after_results_simp <;> rfl

end stretches

variable (m : (ℓ : Loc nD τ sig) → Buf (Elt Ideal) ℓ) (outs : Outs (F := Ideal)) (c : Dev nD)

/-- fc3's output when the mixing head reads it: the feature chain on the pooled combine of x0 and the first two products. -/
theorem v26_gf : V26 m outs c main_v68 = SpecT.gfeat (SpecP.poolK (SpecX.x0T (V0 m c main_arg0)) (outs 2 main_v18 c) (outs 4 main_v20 c) (V0 m c main_arg5) (V0 m c main_arg6)) (V0 m c main_arg7) (V0 m c main_arg8) (V0 m c main_arg9) (V0 m c main_arg10) (V0 m c main_arg11) (V0 m c main_arg12) :=
  (KerArgs.carry m outs c main_v68 11 26 (by decide)).trans <|
    s2_6_v68 (V10 m outs c) (s2_5 (V9 m outs c) (s2_4 (V8 m outs c) (s2_3 (V7 m outs c) (s2_2 (V6 m outs c) (s2_1 (V5 m outs c)
      (s2 (V4 m outs c) ((KerArgs.carry m outs c main_v16 1 4 (by decide)).trans (KerEntry.ker_x0_1 m c))
        ((KerArgs.carry m outs c main_v18 2 4 (by decide)).trans (by simp only [KerArgs.Vn, V2, Function.update_self]))
        (by simp only [V4, Function.update_self]) (KerArgs.carry m outs c main_arg5 0 4 (by decide)) (KerArgs.carry m outs c main_arg6 0 4 (by decide))))
      (KerArgs.carry m outs c main_arg7 0 6 (by decide)) (KerArgs.carry m outs c main_arg8 0 6 (by decide)))) (KerArgs.carry m outs c main_arg9 0 8 (by decide)) (KerArgs.carry m outs c main_arg10 0 8 (by decide)))) (KerArgs.carry m outs c main_arg11 0 10 (by decide)) (KerArgs.carry m outs c main_arg12 0 10 (by decide))

/-- The clip's output: the clipped decoder product. -/
theorem v12_sig : V12 m outs c main_v78 = SpecT.sigm (V0 m c main_arg23) (V0 m c main_arg24) (V0 m c main_arg25) (V0 m c main_arg26) (V0 m c main_arg27) :=
  s2_7 (V11 m outs c) (s2_6_v77 (V10 m outs c) (KerArgs.carry m outs c main_arg23 0 10 (by decide)) (KerArgs.carry m outs c main_arg24 0 10 (by decide)) (KerArgs.carry m outs c main_arg25 0 10 (by decide)) (KerArgs.carry m outs c main_arg26 0 10 (by decide)) (KerArgs.carry m outs c main_arg27 0 10 (by decide)))
    (s2_6_c (V10 m outs c)).1 (s2_6_c (V10 m outs c)).2

theorem ker_z : V27 m outs c main_v132
      = Cert.SpecT.zed (Cert.SpecT.gfeat (Cert.SpecP.poolK (Cert.SpecX.x0T (m ((c : Thread nD τ).loc main_arg0))) (outs 2 main_v18 c) (outs 4 main_v20 c) (m ((c : Thread nD τ).loc main_arg5)) (m ((c : Thread nD τ).loc main_arg6)))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
        (Cert.SpecT.nfeat (outs 18 main_v84 c) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))
        (m ((c : Thread nD τ).loc main_arg28)) (m ((c : Thread nD τ).loc main_arg29)) :=
  s3_8_z (V26 m outs c) (s3_7 (V25 m outs c) (s3_6 (V24 m outs c) (s3_5 (V23 m outs c) (s3_4 (V22 m outs c) (s3_3 (V21 m outs c)
    (s3_2 (V20 m outs c) (s3_1 (V19 m outs c) (s3 (V18 m outs c) (by simp only [V18, Function.update_self]) (KerArgs.carry m outs c main_arg14 0 18 (by decide))))
      (KerArgs.carry m outs c main_arg15 0 20 (by decide)) (KerArgs.carry m outs c main_arg16 0 20 (by decide)))) (KerArgs.carry m outs c main_arg17 0 22 (by decide)) (KerArgs.carry m outs c main_arg18 0 22 (by decide)))) (KerArgs.carry m outs c main_arg19 0 24 (by decide)) (KerArgs.carry m outs c main_arg20 0 24 (by decide))))
    (v26_gf m outs c) (KerArgs.carry m outs c main_arg21 0 26 (by decide)) (KerArgs.carry m outs c main_arg22 0 26 (by decide)) (KerArgs.carry m outs c main_arg28 0 26 (by decide)) (KerArgs.carry m outs c main_arg29 0 26 (by decide))

theorem ker_recon : V27 m outs c main_v133
      = Cert.SpecT.recon (Cert.SpecT.zed (Cert.SpecT.gfeat (Cert.SpecP.poolK (Cert.SpecX.x0T (m ((c : Thread nD τ).loc main_arg0))) (outs 2 main_v18 c) (outs 4 main_v20 c) (m ((c : Thread nD τ).loc main_arg5)) (m ((c : Thread nD τ).loc main_arg6)))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
        (Cert.SpecT.nfeat (outs 18 main_v84 c) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))
        (m ((c : Thread nD τ).loc main_arg28)) (m ((c : Thread nD τ).loc main_arg29)))
          (Cert.SpecT.sigm (m ((c : Thread nD τ).loc main_arg23)) (m ((c : Thread nD τ).loc main_arg24)) (m ((c : Thread nD τ).loc main_arg25)) (m ((c : Thread nD τ).loc main_arg26)) (m ((c : Thread nD τ).loc main_arg27))) :=
  (s3_8_recon (V26 m outs c) ((KerArgs.carry m outs c main_v78 12 26 (by decide)).trans (v12_sig m outs c))).trans
    (congrArg (SpecT.recon · _) (ker_z m outs c))

theorem ker_sig : V27 m outs c main_v78 = Cert.SpecT.sigm (m ((c : Thread nD τ).loc main_arg23)) (m ((c : Thread nD τ).loc main_arg24)) (m ((c : Thread nD τ).loc main_arg25)) (m ((c : Thread nD τ).loc main_arg26)) (m ((c : Thread nD τ).loc main_arg27)) :=
  (KerArgs.carry m outs c main_v78 12 27 (by decide)).trans (v12_sig m outs c)

end Cert.KerTail

end
-- ==== Proof.Assemble.lean ====
import proofs.«415579_j11768210391563_2_alg».proof.Defs
import proofs.«415579_j11768210391563_2_alg».proof.Proof.Gen.Pre_finite_inputs
import proofs.«415579_j11768210391563_2_alg».proof.Proof.KI.Results
import proofs.«415579_j11768210391563_2_alg».proof.Proof.R0Value
import proofs.«415579_j11768210391563_2_alg».proof.Proof.R1Value
import proofs.«415579_j11768210391563_2_alg».proof.Proof.R2Value
import proofs.«415579_j11768210391563_2_alg».proof.Proof.RefTail
import proofs.«415579_j11768210391563_2_alg».proof.Proof.PreFactsM
import proofs.«415579_j11768210391563_2_alg».proof.Proof.BridgeP
import proofs.«415579_j11768210391563_2_alg».proof.Proof.BridgeE
import proofs.«415579_j11768210391563_2_alg».proof.Proof.BridgeX
import proofs.«415579_j11768210391563_2_alg».proof.Proof.KerEntry
import proofs.«415579_j11768210391563_2_alg».proof.Proof.KerTail
import Idealize.ShloMosaic.Lib.ValueIdx

noncomputable section

namespace Cert.Assemble

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- Argument array `r` of the launch memory. -/
abbrev A (r : Ref sig .tc) := m ((c.tc : Thread nD τ).loc r)

/-- z, sig and x_recon = z · sig as the reference computes them, over the kernel program's arguments. -/
abbrev Zw : FVec Ideal S1024x64 .f32 :=
  SpecT.zed (SpecT.gfeat (SpecP.poolR (SpecX.x0T (A m c main_arg0)) (SpecX.x1R (A m c main_arg2) (A m c main_arg3) (A m c main_arg4) (A m c main_arg0))
      (SpecX.x2R (A m c main_arg2) (A m c main_arg3) (A m c main_arg4) (A m c main_arg0)) (A m c main_arg5) (A m c main_arg6)) (A m c main_arg7) (A m c main_arg8) (A m c main_arg9) (A m c main_arg10) (A m c main_arg11) (A m c main_arg12))
    (SpecT.nfeat (SpecE.h0R (A m c main_arg1) (A m c main_arg13)) (A m c main_arg14) (A m c main_arg15) (A m c main_arg16) (A m c main_arg17) (A m c main_arg18) (A m c main_arg19) (A m c main_arg20) (A m c main_arg21) (A m c main_arg22)) (A m c main_arg28) (A m c main_arg29)

abbrev Sw : FVec Ideal S64x20000 .f32 := SpecT.sigm (A m c main_arg23) (A m c main_arg24) (A m c main_arg25) (A m c main_arg26) (A m c main_arg27)

abbrev Rw : FVec Ideal S1024x20000 .f32 := SpecT.recon (Zw m c) (Sw m c)

section
variable (hpre : Cert.Pre_KernelIdeal m)
include hpre

/-- The first product leaves x1 = L · x0: its dense sum over the scattered matrix is the segment sum. -/
theorem x1_val : Hand.outs m 2 main_v18 c = SpecX.x1R (A m c main_arg2) (A m c main_arg3) (A m c main_arg4) (A m c main_arg0) := by
  obtain ⟨hxg, hvals, hrows, hcols⟩ := PreFacts.of_pre m hpre c
  refine BridgeX.x1_eq _ _ _ _ hrows hcols hvals hxg _ fun i j => ?_
  have h := Hand.final0 (Hand.atRefs (V1 m)) c i j
  rw [show Hand.Aarr0 (Hand.atRefs (V1 m)) c = _ from KerEntry.ker_L m c,
    show Hand.Barr0 (Hand.atRefs (V1 m)) c = _ from KerEntry.ker_x0bf m c] at h
  rw [Hand.outs_2 m c]; exact h

/-- The second product leaves x2 = 2 · L · x1 − x0. -/
theorem x2_val : Hand.outs m 4 main_v20 c = SpecX.x2R (A m c main_arg2) (A m c main_arg3) (A m c main_arg4) (A m c main_arg0) := by
  obtain ⟨hxg, hvals, hrows, hcols⟩ := PreFacts.of_pre m hpre c
  refine BridgeX.x2_eq _ _ _ _ hrows hcols hvals hxg _ fun i j => ?_
  have h := Hand.final1 (Hand.atRefs (V3 m (Hand.outs m))) c i j
  rw [show Hand.Aarr1 (Hand.atRefs (V3 m (Hand.outs m))) c = _ from KerEntry.ker_L' m (Hand.outs m) c,
    show Hand.Barr1 (Hand.atRefs (V3 m (Hand.outs m))) c = _ from
      (KerEntry.ker_x1bf m (Hand.outs m) c).trans (congrArg SpecX.bf (x1_val m c hpre)),
    show Hand.Xarr1 (Hand.atRefs (V3 m (Hand.outs m))) c = _ from KerEntry.ker_x0 m (Hand.outs m) c] at h
  rw [Hand.outs_4 m c]; exact h

omit hpre in
/-- The third product leaves x_nn · enc0_wᵀ: the zero padding along the contracted axis adds nothing. -/
theorem h0_val : Hand.outs m 18 main_v84 c = SpecE.h0R (A m c main_arg1) (A m c main_arg13) := by
  refine BridgeE.h0_eq _ _ _ fun i j => ?_
  have h := Hand.final2 (Hand.atRefs (V17 m (Hand.outs m))) c i j
  rw [show Hand.Aarr2 (Hand.atRefs (V17 m (Hand.outs m))) c = _ from KerEntry.ker_xpad m (Hand.outs m) c,
    show Hand.Barr2 (Hand.atRefs (V17 m (Hand.outs m))) c = _ from KerEntry.ker_wpad m (Hand.outs m) c] at h
  rw [Hand.outs_18 m c]; exact h

/-- The kernel program's z: its tail on what the three products leave, the two layouts of combine-and-pool being one function. -/
theorem ker_v132 : V27 m (Hand.outs m) c main_v132 = Zw m c := by
  rw [KerTail.ker_z, x1_val m c hpre, x2_val m c hpre, BridgeP.pool_eq, h0_val m c]

theorem ker_v133 : V27 m (Hand.outs m) c main_v133 = Rw m c :=
  (KerTail.ker_recon m (Hand.outs m) c).trans
    (congrArg (SpecT.recon · (Sw m c)) ((KerTail.ker_z m (Hand.outs m) c).symm.trans (ker_v132 m c hpre)))

end

/-- Both programs run and end with the same three arrays; the reference's are its own terms with the agreed arguments substituted. -/
theorem algebraic : Cert.algebraic_KernelIdeal_ReferenceIdeal := by
  intro m g m' g' hpre hagree
  refine ⟨fun c => Rw m c, fun c => Zw m c, fun c => Sw m c,
    (θ_run _ _ _).mono (fun r h c => ⟨(h c).1.trans (ker_v133 m c hpre), (h c).2.1.trans (ker_v132 m c hpre),
      (h c).2.2.1.trans (KerTail.ker_sig m (Hand.outs m) c), (h c).2.2.2⟩) (Hand.run_value m g),
    (θ_run _ _ _).mono (fun r h c => ?_) (RefTail.ref_run m' g')⟩
  have e := hagree c
  refine ⟨(h c).1.trans ?_, (h c).2.1.trans ?_, (h c).2.2.1.trans ?_, (h c).2.2.2⟩
  · simp only [RefTail.poolRm, RefTail.h0Rm, e] <;> rfl
  · simp only [RefTail.poolRm, RefTail.h0Rm, e] <;> rfl
  · simp only [e] <;> rfl

end Cert.Assemble

end
-- ==== Proof.lean ====
import proofs.«415579_j11768210391563_2_alg».proof.Defs
import proofs.«415579_j11768210391563_2_alg».proof.Proof.Gen.Kernel
import proofs.«415579_j11768210391563_2_alg».proof.Proof.Gen.KernelIdeal
import proofs.«415579_j11768210391563_2_alg».proof.Proof.Gen.ReferenceIdeal
import proofs.«415579_j11768210391563_2_alg».proof.Proof.Gen.Pre_finite_inputs
import proofs.«415579_j11768210391563_2_alg».proof.Proof.Gen.ReferenceIdeal.Run
import proofs.«415579_j11768210391563_2_alg».proof.Proof.K.Segs
import proofs.«415579_j11768210391563_2_alg».proof.Proof.KI.Segs
import proofs.«415579_j11768210391563_2_alg».proof.Proof.Assemble
import Idealize.ShloMosaic.Adequacy
import Idealize.ShloMosaic.Init

noncomputable section

namespace Cert.Proof

open Idealize.ShloMosaic Idealize.SL.Sem

/-- The reference is host operations only: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    Cert.Kernel.Hand.frame, Cert.KernelIdeal.Hand.frame, frame_ri, trivial, Cert.Assemble.algebraic⟩

end Cert.Proof

end
